-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x4 : Shape := ⟨2, ![600000, 4]⟩
abbrev S50000 : Shape := ⟨1, ![50000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part4 {F : FTy → Type} [FloatOps F] (main_arg1 : IVec S2x600000 32) (main_v63 : IVec S_ 1) (main_v67 : IVec S_ 1) : IVec S_ 1 :=
  let main_v68 : IVec S_ 1 := andi main_v63 main_v67
  let main_v69 : IVec S1x600000 32 := (extractStridedSlice S1x600000 ![1, 0] · slices_S2x600000_S1x600000_1_0) main_arg1
  let main_v70 : IVec S600000 32 := shapeCast S600000 main_v69 shapeCasts_S1x600000_S600000
  let main_c_26 : IVec S_ 32 := constantI S_ 32 0#32
  let main_v71 : IVec S600000 32 := broadcastInDim S600000 ![] bcast_S_S600000 main_c_26
  let main_v72 : IVec S600000 1 := cmpi .sge main_v70 main_v71
  let main_v73 : IVec S1x600000 32 := (extractStridedSlice S1x600000 ![1, 0] · slices_S2x600000_S1x600000_1_0) main_arg1
  let main_v74 : IVec S600000 32 := shapeCast S600000 main_v73 shapeCasts_S1x600000_S600000
  let main_c_27 : IVec S_ 32 := constantI S_ 32 50000#32
  let main_v75 : IVec S600000 32 := broadcastInDim S600000 ![] bcast_S_S600000 main_c_27
  let main_v76 : IVec S600000 1 := cmpi .slt main_v74 main_v75
  let main_v77 : IVec S600000 1 := andi main_v72 main_v76
  let main_c_28 : IVec S_ 1 := constantI S_ 1 1#1
  let main_v78 : IVec S_ 1 := (fun x v => Host.reduce IntOp.andi x v reducesTo_S600000_S_d0 h_S_) main_v77 main_c_28
  let main_v79 : IVec S_ 1 := andi main_v68 main_v78
  main_v79

def fn_part3 {F : FTy → Type} [FloatOps F] (main_arg1 : IVec S2x600000 32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x600000 32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_v48 main_v49 main_v50

def fn_part1 {F : FTy → Type} [FloatOps F] (main_arg1 : IVec S2x600000 32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S50000x128 .f32) (main_arg1 : IVec S2x600000 32) (main_arg2 : FVec F S600000x4 .f32) (main_arg3 : IVec S50000 32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x4 .f32 := Host.absf main_arg2
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S600000x4 : Shape := ⟨2, ![600000, 4]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S2000x128 : Shape := ⟨2, ![2000, 128]⟩
abbrev S2000x1 : Shape := ⟨2, ![2000, 1]⟩
abbrev S600000x128 : Shape := ⟨2, ![600000, 128]⟩
abbrev S1x128 : Shape := ⟨2, ![1, 128]⟩
abbrev S1 : Shape := ⟨1, ![1]⟩
abbrev S256x128 : Shape := ⟨2, ![256, 128]⟩
abbrev S2000x256 : Shape := ⟨2, ![2000, 256]⟩
abbrev S256 : Shape := ⟨1, ![256]⟩
abbrev S256x1 : Shape := ⟨2, ![256, 1]⟩

abbrev nBuf : Space → Nat
  | .hbm => 190
  | .vmem => 83
  | .smem => 0
  | _ => 0

abbrev hbmTy0_0 (i : Nat) : BufTy := match i % 128 with
  | 0 => ⟨S50000x128, .f32⟩
  | 1 => ⟨S2x600000, .i32⟩
  | 2 => ⟨S600000x4, .f32⟩
  | 3 => ⟨S50000, .i32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .f32⟩
  | 21 => ⟨S50000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S_, .f32⟩
  | 31 => ⟨S600000, .f32⟩
  | 32 => ⟨S50000, .f32⟩
  | 33 => ⟨S_, .f32⟩
  | 34 => ⟨S50000, .f32⟩
  | 35 => ⟨S50000, .f32⟩
  | 36 => ⟨S50000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000, .f32⟩
  | 55 => ⟨S600000, .f32⟩
  | 56 => ⟨S50000, .f32⟩
  | 57 => ⟨S50000x1, .f32⟩
  | 58 => ⟨S50000x128, .bf16⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .bf16⟩
  | 69 => ⟨S600000x128, .f32⟩
  | 70 => ⟨S600000x1, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S1x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S50000x128, .f32⟩
  | 96 => ⟨S50000x128, .bf16⟩
  | 97 => ⟨S50000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .bf16⟩
  | 107 => ⟨S600000x128, .f32⟩
  | 108 => ⟨S600000x1, .f32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S1x128, .f32⟩
  | 116 => ⟨S50000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S50000x128, .f32⟩
  | 6 => ⟨S50000x128, .bf16⟩
  | 7 => ⟨S50000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .bf16⟩
  | 17 => ⟨S600000x128, .f32⟩
  | 18 => ⟨S600000x1, .f32⟩
  | 19 => ⟨S600000x128, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S1x128, .f32⟩
  | 26 => ⟨S50000x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S50000x128, .f32⟩
  | 44 => ⟨S1, .i32⟩
  | 45 => ⟨S_, .i32⟩
  | 46 => ⟨S50000, .i32⟩
  | 47 => ⟨S50000, .i32⟩
  | 48 => ⟨S50000x1, .i32⟩
  | 49 => ⟨S256x128, .f32⟩
  | 50 => ⟨S_, .f32⟩
  | 51 => ⟨S50000, .f32⟩
  | 52 => ⟨S_, .f32⟩
  | 53 => ⟨S256, .f32⟩
  | 54 => ⟨S50000x1, .i32⟩
  | 55 => ⟨S256, .f32⟩
  | 56 => ⟨S_, .f32⟩
  | 57 => ⟨S256, .f32⟩
  | 58 => ⟨S256, .f32⟩
  | 59 => ⟨S256x1, .f32⟩
  | 60 => ⟨S256x128, .f32⟩
  | 61 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S2000x1, .f32⟩
  | .local _ .vmem, ⟨30, _⟩ => ⟨S2000x1, .f32⟩
  | .local _ .vmem, ⟨31, _⟩ => ⟨S2000x128, .bf16⟩
  | .local _ .vmem, ⟨32, _⟩ => ⟨S2000x128, .bf16⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S128x128, .f32⟩
  | .local _ .vmem, ⟨55, _⟩ => ⟨S2000x1, .f32⟩
  | .local _ .vmem, ⟨56, _⟩ => ⟨S2000x1, .f32⟩
  | .local _ .vmem, ⟨57, _⟩ => ⟨S2000x128, .bf16⟩
  | .local _ .vmem, ⟨58, _⟩ => ⟨S2000x128, .bf16⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S1x128, .f32⟩
  | .local _ .vmem, ⟨66, _⟩ => ⟨S2000x128, .f32⟩
  | .local _ .vmem, ⟨67, _⟩ => ⟨S2000x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x1, .i32⟩
  | .local _ .vmem, ⟨81, _⟩ => ⟨S2000x1, .i32⟩
  | .local _ .vmem, ⟨82, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62_0 : Ref sig .tc := ⟨.hbm, 96, rfl⟩
abbrev main_v62_1 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_c_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78_0 : Ref sig .tc := ⟨.hbm, 116, rfl⟩
abbrev main_v78_1 : Ref sig .tc := ⟨.hbm, 117, rfl⟩
abbrev main_v78_2 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_cst_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91_0 : Ref sig .tc := ⟨.hbm, 134, rfl⟩
abbrev main_v91_1 : Ref sig .tc := ⟨.hbm, 135, rfl⟩
abbrev main_c_19 : Ref sig .tc := ⟨.hbm, 136, rfl⟩
abbrev main_v92 : Ref sig .tc := ⟨.hbm, 137, rfl⟩
abbrev main_v93 : Ref sig .tc := ⟨.hbm, 138, rfl⟩
abbrev main_c_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_21 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107_0 : Ref sig .tc := ⟨.hbm, 154, rfl⟩
abbrev main_v107_1 : Ref sig .tc := ⟨.hbm, 155, rfl⟩
abbrev main_v107_2 : Ref sig .tc := ⟨.hbm, 156, rfl⟩
abbrev main_cst_22 : Ref sig .tc := ⟨.hbm, 157, rfl⟩
abbrev main_v108 : Ref sig .tc := ⟨.hbm, 158, rfl⟩
abbrev main_v109 : Ref sig .tc := ⟨.hbm, 159, rfl⟩
abbrev main_cst_23 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_24 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_25 : Ref sig .tc := ⟨.hbm, 178, rfl⟩
abbrev main_v126 : Ref sig .tc := ⟨.hbm, 179, rfl⟩
abbrev main_cst_26 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_27 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc6_stg4_0 : Ref sig .tc := ⟨.vmem, 59, rfl⟩
abbrev cc6_stg4_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc7_stg4_0 : Ref sig .tc := ⟨.vmem, 68, rfl⟩
abbrev cc7_stg5_0 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem4_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem5_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56
abbrev cc6_sem3_0 : DmaSem sig := 57
abbrev cc6_sem3_1 : DmaSem sig := 58
abbrev cc6_sem4_0 : DmaSem sig := 59
abbrev cc6_sem4_1 : DmaSem sig := 60
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem3_0 : DmaSem sig := 66
abbrev cc7_sem3_1 : DmaSem sig := 67
abbrev cc7_sem4_0 : DmaSem sig := 68
abbrev cc7_sem5_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S50000_S1_0 : S50000.Slices ![0] S1
  shapeCasts_S1_S_ : S1.ShapeCasts S_
  inb_S256x128_S256x128_0_0 : ∀ a, (![0, 0] : Fin 2 → Nat) a + S256x128.size a ≤ S256x128.size a
  h_S256x128 : 0 < S256x128.numel
  iota_S2000x256_d1_w32 : S2000x256.Iotas .tc 32 [1]
  broadcasts_S2000x1_S2000x256 : S2000x1.Broadcasts S2000x256
  natLt_1_32 : 1 < 32
  shapeCasts_S256x128_S256x128 : S256x128.ShapeCasts S256x128
  bcast_S_S256 : S_.BroadcastsInDim S256 (![] : Fin 0 → Fin S256.rank)
  bcast_S50000_S50000x1_0 : S50000.BroadcastsInDim S50000x1 (![0] : Fin 1 → Fin S50000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x256_S2000x128_S256x128_0_0_1_1_n_n_wf : DotDims.WF S2000x256 S2000x128 S256x128 [0] [0] [1] [1] [] []
  scatter_S256_S50000x1_S50000_n_0_0_1_wf : ScatterDims.WF S256 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .bf16 = 32 ∨ (Rect.block (s := S50000x128) S2000x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .bf16 = 32 ∨ (Rect.block (s := S50000x128) S2000x128.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S50000x1.size a
  hwx9_1 : ∀ i : grid9.Coords, EltTy.bits .i32 = 32 ∨ (Rect.block (s := S50000x1) S2000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x128.size a ≤ S256x128.size a
  hwx9_2 : ∀ i : grid9.Coords, EltTy.bits .f32 = 32 ∨ (Rect.block (s := S256x128) S256x128.size (cc9_transform_2 i) (hinb9_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62_0) S2000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62_1) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62_1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v78_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v78_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v90) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v32) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v91_0) S2000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v91_1) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v105) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91_1) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v106) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v107_0) S2000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v107_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v107_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v107_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v109) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v119) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v124) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v125) S256x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x4 : Shape := ⟨2, ![600000, 4]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1 : Shape := ⟨1, ![1]⟩
abbrev S256x128 : Shape := ⟨2, ![256, 128]⟩
abbrev S256 : Shape := ⟨1, ![256]⟩
abbrev S256x1 : Shape := ⟨2, ![256, 1]⟩

abbrev nBuf : Space → Nat
  | .hbm => 348
  | .vmem => 0
  | .smem => 0
  | _ => 0

abbrev hbmTy0_0 (i : Nat) : BufTy := match i % 128 with
  | 0 => ⟨S50000x128, .f32⟩
  | 1 => ⟨S2x600000, .i32⟩
  | 2 => ⟨S600000x4, .f32⟩
  | 3 => ⟨S50000, .i32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .f32⟩
  | 21 => ⟨S50000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S_, .f32⟩
  | 31 => ⟨S600000, .f32⟩
  | 32 => ⟨S50000, .f32⟩
  | 33 => ⟨S_, .f32⟩
  | 34 => ⟨S50000, .f32⟩
  | 35 => ⟨S50000, .f32⟩
  | 36 => ⟨S50000, .f32⟩
  | 37 => ⟨S50000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S600000, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x1, .f32⟩
  | 67 => ⟨S600000x128, .f32⟩
  | 68 => ⟨S600000x128, .f32⟩
  | 69 => ⟨S_, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S50000x128, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000, .f32⟩
  | 26 => ⟨S600000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S600000x1, .f32⟩
  | 37 => ⟨S600000x128, .f32⟩
  | 38 => ⟨S600000x128, .f32⟩
  | 39 => ⟨S_, .f32⟩
  | 40 => ⟨S50000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S50000x128, .f32⟩
  | 50 => ⟨S50000, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000, .f32⟩
  | 124 => ⟨S600000, .f32⟩
  | 125 => ⟨S_, .i32⟩
  | 126 => ⟨S600000, .i32⟩
  | 127 => ⟨S600000, .i1⟩
  | _ => ⟨S50000x128, .f32⟩

abbrev hbmTy0_2 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S600000x1, .f32⟩
  | 7 => ⟨S600000x128, .f32⟩
  | 8 => ⟨S600000x128, .f32⟩
  | 9 => ⟨S_, .f32⟩
  | 10 => ⟨S50000x128, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S50000x128, .f32⟩
  | 20 => ⟨S50000, .f32⟩
  | 21 => ⟨S50000x1, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1, .i32⟩
  | 73 => ⟨S_, .i32⟩
  | 74 => ⟨S50000, .i32⟩
  | 75 => ⟨S50000, .i32⟩
  | 76 => ⟨S_, .f32⟩
  | 77 => ⟨S256x128, .f32⟩
  | 78 => ⟨S50000x1, .i32⟩
  | 79 => ⟨S256x128, .f32⟩
  | 80 => ⟨S_, .f32⟩
  | 81 => ⟨S50000, .f32⟩
  | 82 => ⟨S_, .f32⟩
  | 83 => ⟨S256, .f32⟩
  | 84 => ⟨S50000x1, .i32⟩
  | 85 => ⟨S256, .f32⟩
  | 86 => ⟨S_, .f32⟩
  | 87 => ⟨S256, .f32⟩
  | 88 => ⟨S256, .f32⟩
  | 89 => ⟨S256x1, .f32⟩
  | 90 => ⟨S256x128, .f32⟩
  | 91 => ⟨S256x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_cst_0 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_cst_1 : Ref sig .tc := ⟨.hbm, 104, rfl⟩
abbrev main_call0_v8 : Ref sig .tc := ⟨.hbm, 105, rfl⟩
abbrev main_call0_cst_2 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_cst_3 : Ref sig .tc := ⟨.hbm, 110, rfl⟩
abbrev main_call0_v12 : Ref sig .tc := ⟨.hbm, 111, rfl⟩
abbrev main_call0_cst_4 : Ref sig .tc := ⟨.hbm, 112, rfl⟩
abbrev main_call0_call0_v0 : Ref sig .tc := ⟨.hbm, 113, rfl⟩
abbrev main_call0_call0_v1 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_15 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_call1_cst : Ref sig .tc := ⟨.hbm, 132, rfl⟩
abbrev main_call1_v0 : Ref sig .tc := ⟨.hbm, 133, rfl⟩
abbrev main_v77 : Ref sig .tc := ⟨.hbm, 134, rfl⟩
abbrev main_v78 : Ref sig .tc := ⟨.hbm, 135, rfl⟩
abbrev main_c_16 : Ref sig .tc := ⟨.hbm, 136, rfl⟩
abbrev main_v79 : Ref sig .tc := ⟨.hbm, 137, rfl⟩
abbrev main_v80 : Ref sig .tc := ⟨.hbm, 138, rfl⟩
abbrev main_c_17 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_18 : Ref sig .tc := ⟨.hbm, 145, rfl⟩
abbrev main_v86 : Ref sig .tc := ⟨.hbm, 146, rfl⟩
abbrev main_v87 : Ref sig .tc := ⟨.hbm, 147, rfl⟩
abbrev main_c_19 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_c_20 : Ref sig .tc := ⟨.hbm, 155, rfl⟩
abbrev main_v94 : Ref sig .tc := ⟨.hbm, 156, rfl⟩
abbrev main_v95 : Ref sig .tc := ⟨.hbm, 157, rfl⟩
abbrev main_c_21 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_22 : Ref sig .tc := ⟨.hbm, 167, rfl⟩
abbrev main_v104 : Ref sig .tc := ⟨.hbm, 168, rfl⟩
abbrev main_c_23 : Ref sig .tc := ⟨.hbm, 169, rfl⟩
abbrev main_v105 : Ref sig .tc := ⟨.hbm, 170, rfl⟩
abbrev main_v106 : Ref sig .tc := ⟨.hbm, 171, rfl⟩
abbrev main_c_24 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_25 : Ref sig .tc := ⟨.hbm, 186, rfl⟩
abbrev main_v120 : Ref sig .tc := ⟨.hbm, 187, rfl⟩
abbrev main_cst_26 : Ref sig .tc := ⟨.hbm, 188, rfl⟩
abbrev main_v121 : Ref sig .tc := ⟨.hbm, 189, rfl⟩
abbrev main_v122 : Ref sig .tc := ⟨.hbm, 190, rfl⟩
abbrev main_c_27 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_cst_0 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_call2_v5 : Ref sig .tc := ⟨.hbm, 199, rfl⟩
abbrev main_call2_v6 : Ref sig .tc := ⟨.hbm, 200, rfl⟩
abbrev main_call2_v7 : Ref sig .tc := ⟨.hbm, 201, rfl⟩
abbrev main_call2_cst_1 : Ref sig .tc := ⟨.hbm, 202, rfl⟩
abbrev main_call2_v8 : Ref sig .tc := ⟨.hbm, 203, rfl⟩
abbrev main_call2_cst_2 : Ref sig .tc := ⟨.hbm, 204, rfl⟩
abbrev main_call2_v9 : Ref sig .tc := ⟨.hbm, 205, rfl⟩
abbrev main_call2_v10 : Ref sig .tc := ⟨.hbm, 206, rfl⟩
abbrev main_call2_v11 : Ref sig .tc := ⟨.hbm, 207, rfl⟩
abbrev main_call2_cst_3 : Ref sig .tc := ⟨.hbm, 208, rfl⟩
abbrev main_call2_v12 : Ref sig .tc := ⟨.hbm, 209, rfl⟩
abbrev main_call2_cst_4 : Ref sig .tc := ⟨.hbm, 210, rfl⟩
abbrev main_call2_call0_v0 : Ref sig .tc := ⟨.hbm, 211, rfl⟩
abbrev main_call2_call0_v1 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_28 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_call3_cst : Ref sig .tc := ⟨.hbm, 230, rfl⟩
abbrev main_call3_v0 : Ref sig .tc := ⟨.hbm, 231, rfl⟩
abbrev main_v139 : Ref sig .tc := ⟨.hbm, 232, rfl⟩
abbrev main_v140 : Ref sig .tc := ⟨.hbm, 233, rfl⟩
abbrev main_c_29 : Ref sig .tc := ⟨.hbm, 234, rfl⟩
abbrev main_v141 : Ref sig .tc := ⟨.hbm, 235, rfl⟩
abbrev main_v142 : Ref sig .tc := ⟨.hbm, 236, rfl⟩
abbrev main_c_30 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_c_31 : Ref sig .tc := ⟨.hbm, 243, rfl⟩
abbrev main_v148 : Ref sig .tc := ⟨.hbm, 244, rfl⟩
abbrev main_v149 : Ref sig .tc := ⟨.hbm, 245, rfl⟩
abbrev main_c_32 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_c_33 : Ref sig .tc := ⟨.hbm, 253, rfl⟩
abbrev main_v156 : Ref sig .tc := ⟨.hbm, 254, rfl⟩
abbrev main_v157 : Ref sig .tc := ⟨.hbm, 255, rfl⟩
abbrev main_c_34 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_cst_35 : Ref sig .tc := ⟨.hbm, 265, rfl⟩
abbrev main_v166 : Ref sig .tc := ⟨.hbm, 266, rfl⟩
abbrev main_c_36 : Ref sig .tc := ⟨.hbm, 267, rfl⟩
abbrev main_v167 : Ref sig .tc := ⟨.hbm, 268, rfl⟩
abbrev main_v168 : Ref sig .tc := ⟨.hbm, 269, rfl⟩
abbrev main_c_37 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_cst_38 : Ref sig .tc := ⟨.hbm, 284, rfl⟩
abbrev main_v182 : Ref sig .tc := ⟨.hbm, 285, rfl⟩
abbrev main_cst_39 : Ref sig .tc := ⟨.hbm, 286, rfl⟩
abbrev main_v183 : Ref sig .tc := ⟨.hbm, 287, rfl⟩
abbrev main_v184 : Ref sig .tc := ⟨.hbm, 288, rfl⟩
abbrev main_c_40 : Ref sig .tc := ⟨.hbm, 289, rfl⟩
abbrev main_call4_cst : Ref sig .tc := ⟨.hbm, 290, rfl⟩
abbrev main_call4_v0 : Ref sig .tc := ⟨.hbm, 291, rfl⟩
abbrev main_call4_v1 : Ref sig .tc := ⟨.hbm, 292, rfl⟩
abbrev main_call4_cst_0 : Ref sig .tc := ⟨.hbm, 293, rfl⟩
abbrev main_call4_v2 : Ref sig .tc := ⟨.hbm, 294, rfl⟩
abbrev main_call4_v3 : Ref sig .tc := ⟨.hbm, 295, rfl⟩
abbrev main_call4_v4 : Ref sig .tc := ⟨.hbm, 296, rfl⟩
abbrev main_call4_v5 : Ref sig .tc := ⟨.hbm, 297, rfl⟩
abbrev main_call4_v6 : Ref sig .tc := ⟨.hbm, 298, rfl⟩
abbrev main_call4_v7 : Ref sig .tc := ⟨.hbm, 299, rfl⟩
abbrev main_call4_cst_1 : Ref sig .tc := ⟨.hbm, 300, rfl⟩
abbrev main_call4_v8 : Ref sig .tc := ⟨.hbm, 301, rfl⟩
abbrev main_call4_cst_2 : Ref sig .tc := ⟨.hbm, 302, rfl⟩
abbrev main_call4_v9 : Ref sig .tc := ⟨.hbm, 303, rfl⟩
abbrev main_call4_v10 : Ref sig .tc := ⟨.hbm, 304, rfl⟩
abbrev main_call4_v11 : Ref sig .tc := ⟨.hbm, 305, rfl⟩
abbrev main_call4_cst_3 : Ref sig .tc := ⟨.hbm, 306, rfl⟩
abbrev main_call4_v12 : Ref sig .tc := ⟨.hbm, 307, rfl⟩
abbrev main_call4_cst_4 : Ref sig .tc := ⟨.hbm, 308, rfl⟩
abbrev main_call4_call0_v0 : Ref sig .tc := ⟨.hbm, 309, rfl⟩
abbrev main_call4_call0_v1 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_cst_41 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_cst_42 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_cst_43 : Ref sig .tc := ⟨.hbm, 336, rfl⟩
abbrev main_v208 : Ref sig .tc := ⟨.hbm, 337, rfl⟩
abbrev main_cst_44 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_cst_45 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S50000_S1_0 : S50000.Slices ![0] S1
  shapeCasts_S1_S_ : S1.ShapeCasts S_
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

class Facts : Prop extends Facts₀ where

variable [Facts]
-- ==== Proof.RefRunOps.lean ====
/- The reference's @main as five lists of its host operations, one per printed window, in order; an operation of a
   called function stands at its call site over the call's record of buffers. -/
import proofs.«428539_j48352741818636_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x600000 ![0, 0] · slices_S2x600000_S1x600000_0_0)),
    StableHlo.reshape main_v0 main_v1 rfl shapeCasts_S1x600000_S600000,
    StableHlo.unary main_arg1 main_v2 ((extractStridedSlice S1x600000 ![1, 0] · slices_S2x600000_S1x600000_1_0)),
    StableHlo.reshape main_v2 main_v3 rfl shapeCasts_S1x600000_S600000,
    StableHlo.nullary main_cst (constant S_ .f32 0x00000000#32),
    StableHlo.unary main_cst main_v4 (broadcastInDim S50000 ![] bcast_S_S50000),
    StableHlo.nullary main_c (constantI S_ 32 0#32),
    StableHlo.unary main_c main_v5 (broadcastInDim S600000 ![] bcast_S_S600000),
    StableHlo.binary main_v3 main_v5 main_v6 (cmpi .slt),
    StableHlo.nullary main_c_0 (constantI S_ 32 50000#32),
    StableHlo.unary main_c_0 main_v7 (broadcastInDim S600000 ![] bcast_S_S600000),
    StableHlo.binary main_v3 main_v7 main_v8 (addi),
    StableHlo.ternary main_v6 main_v8 main_v3 main_v9 (select),
    StableHlo.unary main_v9 main_v10 (broadcastInDim S600000x1 ![0] bcast_S600000_S600000x1_0),
    StableHlo.nullary main_cst_1 (constant S_ .f32 0x3F800000#32),
    StableHlo.unary main_cst_1 main_v11 (broadcastInDim S600000 ![] bcast_S_S600000),
    StableHlo.ternary main_v4 main_v10 main_v11 main_v12 ((fun x i u => Host.scatterAdd scatter_S50000_S600000x1_S600000_n_0_0_1 x i u)),
    StableHlo.nullary main_cst_2 (constant S_ .f32 0x3F800000#32),
    StableHlo.unary main_cst_2 main_v13 (broadcastInDim S50000 ![] bcast_S_S50000),
    StableHlo.binary main_v12 main_v13 main_v14 (addf),
    StableHlo.unary main_v14 main_v15 (Host.rsqrt),
    StableHlo.binary main_arg0 main_arg4 main_v16 ((fun l r => Host.dotGeneral dot_S50000x128_S128x128_S50000x128_1_0_0_1_n_n none l r)),
    StableHlo.nullary main_c_3 (constantI S_ 32 0#32),
    StableHlo.unary main_c_3 main_v17 (broadcastInDim S600000 ![] bcast_S_S600000),
    StableHlo.binary main_v1 main_v17 main_v18 (cmpi .slt),
    StableHlo.nullary main_c_4 (constantI S_ 32 50000#32),
    StableHlo.unary main_c_4 main_v19 (broadcastInDim S600000 ![] bcast_S_S600000),
    StableHlo.binary main_v1 main_v19 main_v20 (addi),
    StableHlo.ternary main_v18 main_v20 main_v1 main_v21 (select),
    StableHlo.unary main_v21 main_v22 (broadcastInDim S600000x1 ![0] bcast_S600000_S600000x1_0),
    StableHlo.binary main_v15 main_v22 main_v23 ((fun x i => Host.gather gather_S50000_S600000x1_S600000_n_0_n_n_0_1_1 x i)),
    StableHlo.nullary main_c_5 (constantI S_ 32 0#32),
    StableHlo.unary main_c_5 main_v24 (broadcastInDim S600000 ![] bcast_S_S600000),
    StableHlo.binary main_v3 main_v24 main_v25 (cmpi .slt),
    StableHlo.nullary main_c_6 (constantI S_ 32 50000#32),
    StableHlo.unary main_c_6 main_v26 (broadcastInDim S600000 ![] bcast_S_S600000),
    StableHlo.binary main_v3 main_v26 main_v27 (addi),
    StableHlo.ternary main_v25 main_v27 main_v3 main_v28 (select),
    StableHlo.unary main_v28 main_v29 (broadcastInDim S600000x1 ![0] bcast_S600000_S600000x1_0),
    StableHlo.binary main_v15 main_v29 main_v30 ((fun x i => Host.gather gather_S50000_S600000x1_S600000_n_0_n_n_0_1_1 x i)),
    StableHlo.binary main_v23 main_v30 main_v31 (mulf),
    StableHlo.nullary main_c_7 (constantI S_ 32 0#32),
    StableHlo.unary main_c_7 main_v32 (broadcastInDim S600000 ![] bcast_S_S600000),
    StableHlo.binary main_v1 main_v32 main_v33 (cmpi .slt),
    StableHlo.nullary main_c_8 (constantI S_ 32 50000#32),
    StableHlo.unary main_c_8 main_v34 (broadcastInDim S600000 ![] bcast_S_S600000),
    StableHlo.binary main_v1 main_v34 main_v35 (addi),
    StableHlo.ternary main_v33 main_v35 main_v1 main_v36 (select),
    StableHlo.unary main_v36 main_v37 (broadcastInDim S600000x1 ![0] bcast_S600000_S600000x1_0),
    StableHlo.binary main_v16 main_v37 main_v38 ((fun x i => Host.gather gather_S50000x128_S600000x1_S600000x128_1_0_n_n_0_1_1128 x i)),
    StableHlo.unary main_v31 main_v39 (broadcastInDim S600000x1 ![0] bcast_S600000_S600000x1_0),
    StableHlo.unary main_v39 main_v40 (broadcastInDim S600000x128 ![0, 1] bcast_S600000x1_S600000x128_0_1),
    StableHlo.binary main_v38 main_v40 main_v41 (mulf),
    StableHlo.nullary main_cst_9 (constant S_ .f32 0x00000000#32),
    StableHlo.unary main_cst_9 main_v42 (broadcastInDim S50000x128 ![] bcast_S_S50000x128),
    StableHlo.nullary main_c_10 (constantI S_ 32 0#32),
    StableHlo.unary main_c_10 main_v43 (broadcastInDim S600000 ![] bcast_S_S600000),
    StableHlo.binary main_v3 main_v43 main_v44 (cmpi .slt),
    StableHlo.nullary main_c_11 (constantI S_ 32 50000#32),
    StableHlo.unary main_c_11 main_v45 (broadcastInDim S600000 ![] bcast_S_S600000) ]

abbrev ops1 : List (HloOp τ sig (Elt F)) :=
  [ StableHlo.binary main_v3 main_v45 main_v46 (addi),
    StableHlo.ternary main_v44 main_v46 main_v3 main_v47 (select),
    StableHlo.unary main_v47 main_v48 (broadcastInDim S600000x1 ![0] bcast_S600000_S600000x1_0),
    StableHlo.ternary main_v42 main_v48 main_v41 main_v49 ((fun x i u => Host.scatterAdd scatter_S50000x128_S600000x1_S600000x128_1_0_0_1 x i u)),
    StableHlo.binary main_v15 main_v15 main_v50 (mulf),
    StableHlo.unary main_v50 main_v51 (broadcastInDim S50000x1 ![0] bcast_S50000_S50000x1_0),
    StableHlo.unary main_v51 main_v52 (broadcastInDim S50000x128 ![0, 1] bcast_S50000x1_S50000x128_0_1),
    StableHlo.binary main_v16 main_v52 main_v53 (mulf),
    StableHlo.binary main_v49 main_v53 main_v54 (addf),
    StableHlo.unary main_arg5 main_v55 (broadcastInDim S1x128 ![1] bcast_S128_S1x128_1),
    StableHlo.unary main_v55 main_v56 (broadcastInDim S50000x128 ![0, 1] bcast_S1x128_S50000x128_0_1),
    StableHlo.binary main_v54 main_v56 main_v57 (addf),
    StableHlo.nullary main_cst_12 (constant S_ .f32 0x00000000#32),
    StableHlo.binary main_v57 main_cst_12 main_v58 ((fun x v => Host.reduceAdd x v reducesTo_S50000x128_S128_d0 h_S_)),
    StableHlo.nullary main_cst_13 (constant S_ .f32 0x47435000#32),
    StableHlo.unary main_cst_13 main_v59 (broadcastInDim S128 ![] bcast_S_S128),
    StableHlo.binary main_v58 main_v59 main_v60 (Host.divf),
    StableHlo.nullary main_c_14 (constantI S_ 32 0#32),
    StableHlo.TRef.nullary main_call0.cst (constant S_ .f32 0x00000000#32),
    StableHlo.TRef.binary (.of main_v57 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v57 : StableHlo.TRef sig ⟨S50000x128, .f32⟩) main_call0.v4 main_call0.v5 subf,
    StableHlo.TRef.binary main_call0.v5 main_call0.v5 main_call0.v6 mulf,
    StableHlo.TRef.unary (.of main_c_14 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v60 main_v62 (broadcastInDim S1x128 ![1] bcast_S128_S1x128_1),
    StableHlo.unary main_v62 main_v63 (broadcastInDim S50000x128 ![0, 1] bcast_S1x128_S50000x128_0_1),
    StableHlo.binary main_v57 main_v63 main_v64 (subf),
    StableHlo.nullary main_cst_15 (constant S_ .f32 0x3727C5AC#32),
    StableHlo.unary main_cst_15 main_v65 (broadcastInDim S128 ![] bcast_S_S128),
    StableHlo.binary main_v61 main_v65 main_v66 (addf),
    StableHlo.unary main_v66 main_v67 (Host.rsqrt),
    StableHlo.unary main_v67 main_v68 (broadcastInDim S1x128 ![1] bcast_S128_S1x128_1),
    StableHlo.unary main_v68 main_v69 (broadcastInDim S50000x128 ![0, 1] bcast_S1x128_S50000x128_0_1),
    StableHlo.binary main_v64 main_v69 main_v70 (mulf),
    StableHlo.unary main_arg6 main_v71 (broadcastInDim S1x128 ![1] bcast_S128_S1x128_1),
    StableHlo.unary main_v71 main_v72 (broadcastInDim S50000x128 ![0, 1] bcast_S1x128_S50000x128_0_1),
    StableHlo.binary main_v70 main_v72 main_v73 (mulf),
    StableHlo.unary main_arg7 main_v74 (broadcastInDim S1x128 ![1] bcast_S128_S1x128_1),
    StableHlo.unary main_v74 main_v75 (broadcastInDim S50000x128 ![0, 1] bcast_S1x128_S50000x128_0_1),
    StableHlo.binary main_v73 main_v75 main_v76 (addf),
    StableHlo.TRef.nullary main_call1.cst (constant S_ .f32 0x00000000#32),
    StableHlo.TRef.unary main_call1.cst main_call1.v0 (broadcastInDim S50000x128 ![] bcast_S_S50000x128),
    StableHlo.TRef.binary (.of main_v76 : StableHlo.TRef sig ⟨S50000x128, .f32⟩) main_call1.v0 main_call1.v1 maximumf,
    StableHlo.binary main_v77 main_arg8 main_v78 ((fun l r => Host.dotGeneral dot_S50000x128_S128x128_S50000x128_1_0_0_1_n_n none l r)),
    StableHlo.nullary main_c_16 (constantI S_ 32 0#32),
    StableHlo.unary main_c_16 main_v79 (broadcastInDim S600000 ![] bcast_S_S600000),
    StableHlo.binary main_v1 main_v79 main_v80 (cmpi .slt),
    StableHlo.nullary main_c_17 (constantI S_ 32 50000#32),
    StableHlo.unary main_c_17 main_v81 (broadcastInDim S600000 ![] bcast_S_S600000),
    StableHlo.binary main_v1 main_v81 main_v82 (addi),
    StableHlo.ternary main_v80 main_v82 main_v1 main_v83 (select),
    StableHlo.unary main_v83 main_v84 (broadcastInDim S600000x1 ![0] bcast_S600000_S600000x1_0),
    StableHlo.binary main_v15 main_v84 main_v85 ((fun x i => Host.gather gather_S50000_S600000x1_S600000_n_0_n_n_0_1_1 x i)),
    StableHlo.nullary main_c_18 (constantI S_ 32 0#32),
    StableHlo.unary main_c_18 main_v86 (broadcastInDim S600000 ![] bcast_S_S600000),
    StableHlo.binary main_v3 main_v86 main_v87 (cmpi .slt),
    StableHlo.nullary main_c_19 (constantI S_ 32 50000#32),
    StableHlo.unary main_c_19 main_v88 (broadcastInDim S600000 ![] bcast_S_S600000),
    StableHlo.binary main_v3 main_v88 main_v89 (addi),
    StableHlo.ternary main_v87 main_v89 main_v3 main_v90 (select),
    StableHlo.unary main_v90 main_v91 (broadcastInDim S600000x1 ![0] bcast_S600000_S600000x1_0),
    StableHlo.binary main_v15 main_v91 main_v92 ((fun x i => Host.gather gather_S50000_S600000x1_S600000_n_0_n_n_0_1_1 x i)),
    StableHlo.binary main_v85 main_v92 main_v93 (mulf),
    StableHlo.nullary main_c_20 (constantI S_ 32 0#32),
    StableHlo.unary main_c_20 main_v94 (broadcastInDim S600000 ![] bcast_S_S600000),
    StableHlo.binary main_v1 main_v94 main_v95 (cmpi .slt),
    StableHlo.nullary main_c_21 (constantI S_ 32 50000#32) ]

abbrev ops2 : List (HloOp τ sig (Elt F)) :=
  [ StableHlo.unary main_c_21 main_v96 (broadcastInDim S600000 ![] bcast_S_S600000),
    StableHlo.binary main_v1 main_v96 main_v97 (addi),
    StableHlo.ternary main_v95 main_v97 main_v1 main_v98 (select),
    StableHlo.unary main_v98 main_v99 (broadcastInDim S600000x1 ![0] bcast_S600000_S600000x1_0),
    StableHlo.binary main_v78 main_v99 main_v100 ((fun x i => Host.gather gather_S50000x128_S600000x1_S600000x128_1_0_n_n_0_1_1128 x i)),
    StableHlo.unary main_v93 main_v101 (broadcastInDim S600000x1 ![0] bcast_S600000_S600000x1_0),
    StableHlo.unary main_v101 main_v102 (broadcastInDim S600000x128 ![0, 1] bcast_S600000x1_S600000x128_0_1),
    StableHlo.binary main_v100 main_v102 main_v103 (mulf),
    StableHlo.nullary main_cst_22 (constant S_ .f32 0x00000000#32),
    StableHlo.unary main_cst_22 main_v104 (broadcastInDim S50000x128 ![] bcast_S_S50000x128),
    StableHlo.nullary main_c_23 (constantI S_ 32 0#32),
    StableHlo.unary main_c_23 main_v105 (broadcastInDim S600000 ![] bcast_S_S600000),
    StableHlo.binary main_v3 main_v105 main_v106 (cmpi .slt),
    StableHlo.nullary main_c_24 (constantI S_ 32 50000#32),
    StableHlo.unary main_c_24 main_v107 (broadcastInDim S600000 ![] bcast_S_S600000),
    StableHlo.binary main_v3 main_v107 main_v108 (addi),
    StableHlo.ternary main_v106 main_v108 main_v3 main_v109 (select),
    StableHlo.unary main_v109 main_v110 (broadcastInDim S600000x1 ![0] bcast_S600000_S600000x1_0),
    StableHlo.ternary main_v104 main_v110 main_v103 main_v111 ((fun x i u => Host.scatterAdd scatter_S50000x128_S600000x1_S600000x128_1_0_0_1 x i u)),
    StableHlo.binary main_v15 main_v15 main_v112 (mulf),
    StableHlo.unary main_v112 main_v113 (broadcastInDim S50000x1 ![0] bcast_S50000_S50000x1_0),
    StableHlo.unary main_v113 main_v114 (broadcastInDim S50000x128 ![0, 1] bcast_S50000x1_S50000x128_0_1),
    StableHlo.binary main_v78 main_v114 main_v115 (mulf),
    StableHlo.binary main_v111 main_v115 main_v116 (addf),
    StableHlo.unary main_arg9 main_v117 (broadcastInDim S1x128 ![1] bcast_S128_S1x128_1),
    StableHlo.unary main_v117 main_v118 (broadcastInDim S50000x128 ![0, 1] bcast_S1x128_S50000x128_0_1),
    StableHlo.binary main_v116 main_v118 main_v119 (addf),
    StableHlo.nullary main_cst_25 (constant S_ .f32 0x00000000#32),
    StableHlo.binary main_v119 main_cst_25 main_v120 ((fun x v => Host.reduceAdd x v reducesTo_S50000x128_S128_d0 h_S_)),
    StableHlo.nullary main_cst_26 (constant S_ .f32 0x47435000#32),
    StableHlo.unary main_cst_26 main_v121 (broadcastInDim S128 ![] bcast_S_S128),
    StableHlo.binary main_v120 main_v121 main_v122 (Host.divf),
    StableHlo.nullary main_c_27 (constantI S_ 32 0#32),
    StableHlo.TRef.nullary main_call2.cst (constant S_ .f32 0x00000000#32),
    StableHlo.TRef.binary (.of main_v119 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v119 : StableHlo.TRef sig ⟨S50000x128, .f32⟩) main_call2.v4 main_call2.v5 subf,
    StableHlo.TRef.binary main_call2.v5 main_call2.v5 main_call2.v6 mulf,
    StableHlo.TRef.unary (.of main_c_27 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v122 main_v124 (broadcastInDim S1x128 ![1] bcast_S128_S1x128_1),
    StableHlo.unary main_v124 main_v125 (broadcastInDim S50000x128 ![0, 1] bcast_S1x128_S50000x128_0_1),
    StableHlo.binary main_v119 main_v125 main_v126 (subf),
    StableHlo.nullary main_cst_28 (constant S_ .f32 0x3727C5AC#32),
    StableHlo.unary main_cst_28 main_v127 (broadcastInDim S128 ![] bcast_S_S128),
    StableHlo.binary main_v123 main_v127 main_v128 (addf),
    StableHlo.unary main_v128 main_v129 (Host.rsqrt),
    StableHlo.unary main_v129 main_v130 (broadcastInDim S1x128 ![1] bcast_S128_S1x128_1),
    StableHlo.unary main_v130 main_v131 (broadcastInDim S50000x128 ![0, 1] bcast_S1x128_S50000x128_0_1),
    StableHlo.binary main_v126 main_v131 main_v132 (mulf),
    StableHlo.unary main_arg10 main_v133 (broadcastInDim S1x128 ![1] bcast_S128_S1x128_1),
    StableHlo.unary main_v133 main_v134 (broadcastInDim S50000x128 ![0, 1] bcast_S1x128_S50000x128_0_1),
    StableHlo.binary main_v132 main_v134 main_v135 (mulf),
    StableHlo.unary main_arg11 main_v136 (broadcastInDim S1x128 ![1] bcast_S128_S1x128_1),
    StableHlo.unary main_v136 main_v137 (broadcastInDim S50000x128 ![0, 1] bcast_S1x128_S50000x128_0_1),
    StableHlo.binary main_v135 main_v137 main_v138 (addf),
    StableHlo.TRef.nullary main_call3.cst (constant S_ .f32 0x00000000#32),
    StableHlo.TRef.unary main_call3.cst main_call3.v0 (broadcastInDim S50000x128 ![] bcast_S_S50000x128),
    StableHlo.TRef.binary (.of main_v138 : StableHlo.TRef sig ⟨S50000x128, .f32⟩) main_call3.v0 main_call3.v1 maximumf,
    StableHlo.binary main_v139 main_arg12 main_v140 ((fun l r => Host.dotGeneral dot_S50000x128_S128x128_S50000x128_1_0_0_1_n_n none l r)),
    StableHlo.nullary main_c_29 (constantI S_ 32 0#32),
    StableHlo.unary main_c_29 main_v141 (broadcastInDim S600000 ![] bcast_S_S600000),
    StableHlo.binary main_v1 main_v141 main_v142 (cmpi .slt),
    StableHlo.nullary main_c_30 (constantI S_ 32 50000#32),
    StableHlo.unary main_c_30 main_v143 (broadcastInDim S600000 ![] bcast_S_S600000),
    StableHlo.binary main_v1 main_v143 main_v144 (addi),
    StableHlo.ternary main_v142 main_v144 main_v1 main_v145 (select),
    StableHlo.unary main_v145 main_v146 (broadcastInDim S600000x1 ![0] bcast_S600000_S600000x1_0) ]

abbrev ops3 : List (HloOp τ sig (Elt F)) :=
  [ StableHlo.binary main_v15 main_v146 main_v147 ((fun x i => Host.gather gather_S50000_S600000x1_S600000_n_0_n_n_0_1_1 x i)),
    StableHlo.nullary main_c_31 (constantI S_ 32 0#32),
    StableHlo.unary main_c_31 main_v148 (broadcastInDim S600000 ![] bcast_S_S600000),
    StableHlo.binary main_v3 main_v148 main_v149 (cmpi .slt),
    StableHlo.nullary main_c_32 (constantI S_ 32 50000#32),
    StableHlo.unary main_c_32 main_v150 (broadcastInDim S600000 ![] bcast_S_S600000),
    StableHlo.binary main_v3 main_v150 main_v151 (addi),
    StableHlo.ternary main_v149 main_v151 main_v3 main_v152 (select),
    StableHlo.unary main_v152 main_v153 (broadcastInDim S600000x1 ![0] bcast_S600000_S600000x1_0),
    StableHlo.binary main_v15 main_v153 main_v154 ((fun x i => Host.gather gather_S50000_S600000x1_S600000_n_0_n_n_0_1_1 x i)),
    StableHlo.binary main_v147 main_v154 main_v155 (mulf),
    StableHlo.nullary main_c_33 (constantI S_ 32 0#32),
    StableHlo.unary main_c_33 main_v156 (broadcastInDim S600000 ![] bcast_S_S600000),
    StableHlo.binary main_v1 main_v156 main_v157 (cmpi .slt),
    StableHlo.nullary main_c_34 (constantI S_ 32 50000#32),
    StableHlo.unary main_c_34 main_v158 (broadcastInDim S600000 ![] bcast_S_S600000),
    StableHlo.binary main_v1 main_v158 main_v159 (addi),
    StableHlo.ternary main_v157 main_v159 main_v1 main_v160 (select),
    StableHlo.unary main_v160 main_v161 (broadcastInDim S600000x1 ![0] bcast_S600000_S600000x1_0),
    StableHlo.binary main_v140 main_v161 main_v162 ((fun x i => Host.gather gather_S50000x128_S600000x1_S600000x128_1_0_n_n_0_1_1128 x i)),
    StableHlo.unary main_v155 main_v163 (broadcastInDim S600000x1 ![0] bcast_S600000_S600000x1_0),
    StableHlo.unary main_v163 main_v164 (broadcastInDim S600000x128 ![0, 1] bcast_S600000x1_S600000x128_0_1),
    StableHlo.binary main_v162 main_v164 main_v165 (mulf),
    StableHlo.nullary main_cst_35 (constant S_ .f32 0x00000000#32),
    StableHlo.unary main_cst_35 main_v166 (broadcastInDim S50000x128 ![] bcast_S_S50000x128),
    StableHlo.nullary main_c_36 (constantI S_ 32 0#32),
    StableHlo.unary main_c_36 main_v167 (broadcastInDim S600000 ![] bcast_S_S600000),
    StableHlo.binary main_v3 main_v167 main_v168 (cmpi .slt),
    StableHlo.nullary main_c_37 (constantI S_ 32 50000#32),
    StableHlo.unary main_c_37 main_v169 (broadcastInDim S600000 ![] bcast_S_S600000),
    StableHlo.binary main_v3 main_v169 main_v170 (addi),
    StableHlo.ternary main_v168 main_v170 main_v3 main_v171 (select),
    StableHlo.unary main_v171 main_v172 (broadcastInDim S600000x1 ![0] bcast_S600000_S600000x1_0),
    StableHlo.ternary main_v166 main_v172 main_v165 main_v173 ((fun x i u => Host.scatterAdd scatter_S50000x128_S600000x1_S600000x128_1_0_0_1 x i u)),
    StableHlo.binary main_v15 main_v15 main_v174 (mulf),
    StableHlo.unary main_v174 main_v175 (broadcastInDim S50000x1 ![0] bcast_S50000_S50000x1_0),
    StableHlo.unary main_v175 main_v176 (broadcastInDim S50000x128 ![0, 1] bcast_S50000x1_S50000x128_0_1),
    StableHlo.binary main_v140 main_v176 main_v177 (mulf),
    StableHlo.binary main_v173 main_v177 main_v178 (addf),
    StableHlo.unary main_arg13 main_v179 (broadcastInDim S1x128 ![1] bcast_S128_S1x128_1),
    StableHlo.unary main_v179 main_v180 (broadcastInDim S50000x128 ![0, 1] bcast_S1x128_S50000x128_0_1),
    StableHlo.binary main_v178 main_v180 main_v181 (addf),
    StableHlo.nullary main_cst_38 (constant S_ .f32 0x00000000#32),
    StableHlo.binary main_v181 main_cst_38 main_v182 ((fun x v => Host.reduceAdd x v reducesTo_S50000x128_S128_d0 h_S_)),
    StableHlo.nullary main_cst_39 (constant S_ .f32 0x47435000#32),
    StableHlo.unary main_cst_39 main_v183 (broadcastInDim S128 ![] bcast_S_S128),
    StableHlo.binary main_v182 main_v183 main_v184 (Host.divf),
    StableHlo.nullary main_c_40 (constantI S_ 32 0#32),
    StableHlo.TRef.nullary main_call4.cst (constant S_ .f32 0x00000000#32),
    StableHlo.TRef.binary (.of main_v181 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v181 : StableHlo.TRef sig ⟨S50000x128, .f32⟩) main_call4.v4 main_call4.v5 subf,
    StableHlo.TRef.binary main_call4.v5 main_call4.v5 main_call4.v6 mulf,
    StableHlo.TRef.unary (.of main_c_40 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v184 main_v186 (broadcastInDim S1x128 ![1] bcast_S128_S1x128_1),
    StableHlo.unary main_v186 main_v187 (broadcastInDim S50000x128 ![0, 1] bcast_S1x128_S50000x128_0_1),
    StableHlo.binary main_v181 main_v187 main_v188 (subf),
    StableHlo.nullary main_cst_41 (constant S_ .f32 0x3727C5AC#32),
    StableHlo.unary main_cst_41 main_v189 (broadcastInDim S128 ![] bcast_S_S128),
    StableHlo.binary main_v185 main_v189 main_v190 (addf),
    StableHlo.unary main_v190 main_v191 (Host.rsqrt),
    StableHlo.unary main_v191 main_v192 (broadcastInDim S1x128 ![1] bcast_S128_S1x128_1),
    StableHlo.unary main_v192 main_v193 (broadcastInDim S50000x128 ![0, 1] bcast_S1x128_S50000x128_0_1),
    StableHlo.binary main_v188 main_v193 main_v194 (mulf),
    StableHlo.unary main_arg14 main_v195 (broadcastInDim S1x128 ![1] bcast_S128_S1x128_1) ]

abbrev ops4 : List (HloOp τ sig (Elt F)) :=
  [ StableHlo.unary main_v195 main_v196 (broadcastInDim S50000x128 ![0, 1] bcast_S1x128_S50000x128_0_1),
    StableHlo.binary main_v194 main_v196 main_v197 (mulf),
    StableHlo.unary main_arg15 main_v198 (broadcastInDim S1x128 ![1] bcast_S128_S1x128_1),
    StableHlo.unary main_v198 main_v199 (broadcastInDim S50000x128 ![0, 1] bcast_S1x128_S50000x128_0_1),
    StableHlo.binary main_v197 main_v199 main_v200 (addf),
    StableHlo.unary main_arg3 main_v201 ((extractStridedSlice S1 ![0] · slices_S50000_S1_0)),
    StableHlo.reshape main_v201 main_v202 rfl shapeCasts_S1_S_,
    StableHlo.unary main_v202 main_v203 (broadcastInDim S50000 ![] bcast_S_S50000),
    StableHlo.binary main_arg3 main_v203 main_v204 (subi),
    StableHlo.nullary main_cst_42 (constant S_ .f32 0x00000000#32),
    StableHlo.unary main_cst_42 main_v205 (broadcastInDim S256x128 ![] bcast_S_S256x128),
    StableHlo.unary main_v204 main_v206 (broadcastInDim S50000x1 ![0] bcast_S50000_S50000x1_0),
    StableHlo.ternary main_v205 main_v206 main_v200 main_v207 ((fun x i u => Host.scatterAdd scatter_S256x128_S50000x1_S50000x128_1_0_0_1 x i u)),
    StableHlo.nullary main_cst_43 (constant S_ .f32 0x3F800000#32),
    StableHlo.unary main_cst_43 main_v208 (broadcastInDim S50000 ![] bcast_S_S50000),
    StableHlo.nullary main_cst_44 (constant S_ .f32 0x00000000#32),
    StableHlo.unary main_cst_44 main_v209 (broadcastInDim S256 ![] bcast_S_S256),
    StableHlo.unary main_v204 main_v210 (broadcastInDim S50000x1 ![0] bcast_S50000_S50000x1_0),
    StableHlo.ternary main_v209 main_v210 main_v208 main_v211 ((fun x i u => Host.scatterAdd scatter_S256_S50000x1_S50000_n_0_0_1 x i u)),
    StableHlo.nullary main_cst_45 (constant S_ .f32 0x3F800000#32),
    StableHlo.unary main_cst_45 main_v212 (broadcastInDim S256 ![] bcast_S_S256),
    StableHlo.binary main_v211 main_v212 main_v213 (maximumf),
    StableHlo.unary main_v213 main_v214 (broadcastInDim S256x1 ![0] bcast_S256_S256x1_0),
    StableHlo.unary main_v214 main_v215 (broadcastInDim S256x128 ![0, 1] bcast_S256x1_S256x128_0_1),
    StableHlo.binary main_v207 main_v215 main_v216 (Host.divf) ]

abbrev ops : List (HloOp τ sig (Elt F)) := ops0 ++ ops1 ++ ops2 ++ ops3 ++ ops4

end Cert.ReferenceIdeal.RefRun

end
-- ==== Proof.RefRun.lean ====
/- The reference's run: @main is the straight line of its operations, every operation touches only the device's own
   references and determines its result, so every weakly fair execution ends with each buffer at the operations' fold. -/
import proofs.«428539_j48352741818636_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq ops0 := by
  simp only [main_part0, seq]
  rfl

set_option maxRecDepth 16384 in
set_option maxHeartbeats 4000000 in
theorem main_part1_eq (c : Dev nD) : main_part1 (F := F) c = seq ops1 := by
  simp only [main_part1, fn_var.body, fn_where.body, fn_relu.body, seq, bind_assoc, pure_bind]
  rfl

set_option maxRecDepth 16384 in
set_option maxHeartbeats 4000000 in
theorem main_part2_eq (c : Dev nD) : main_part2 (F := F) c = seq ops2 := by
  simp only [main_part2, fn_var.body, fn_where.body, fn_relu.body, seq, bind_assoc, pure_bind]
  rfl

set_option maxRecDepth 16384 in
set_option maxHeartbeats 4000000 in
theorem main_part3_eq (c : Dev nD) : main_part3 (F := F) c = seq ops3 := by
  simp only [main_part3, fn_var.body, fn_where.body, seq, bind_assoc, pure_bind]
  rfl

theorem main_part4_eq (c : Dev nD) : main_part4 (F := F) c = seq ops4 := by
  simp only [main_part4, seq]
  rfl

theorem main_eq (c : Dev nD) : main (F := F) c = seq ops := by
  have h : (seq ops : Prog (TpuEff nD τ sig (Elt F) (Pipeline.Sig Λ₀ (Fin 0) fun p => (pcfgs (F := F) p).Adm) .tc) PUnit)
      = seq ops0 >>= fun _ => seq ops1 >>= fun _ => seq ops2 >>= fun _ => seq ops3 >>= fun _ => seq ops4 := by
    simp only [ops, seq_append, bind_assoc]
  rw [h, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig := by
  simp only [ops, List.forall_append]
  simp only [ops0, ops1, ops2, ops3, ops4, List.Forall, unary_bufs_sub, binary_bufs_sub, nullary_bufs_sub, ternary_bufs_sub,
    reshape_bufs_sub, and_self]

set_option maxRecDepth 16384 in
theorem ops_fresh : ∀ op ∈ (ops : List (HloOp τ sig (Elt F))), op.fresh = ∅ :=
  List.forall_iff_forall_mem.1 (by
    simp only [ops, List.forall_append]
    repeat' apply And.intro
    all_goals rfl)

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Spec.lean ====
/- One graph-convolution layer on the extended reals, entry by entry: the product with the weights, the self term, the sum
   with the bias, the column sums and sums of squares, the per-channel normalisation (clipped at zero or not), the group sums. -/
import Idealize.ShloMosaic.PureOps.Ideal
import Idealize.ShloMosaic.Lib.ValueIdx

noncomputable section

namespace Cert.GCN

open Idealize.ShloMosaic Idealize.ShloMosaic.ValueIdx

abbrev SN : Shape := ⟨2, ![50000, 128]⟩
abbrev SW : Shape := ⟨2, ![128, 128]⟩
abbrev SC : Shape := ⟨2, ![50000, 1]⟩
abbrev SR : Shape := ⟨2, ![1, 128]⟩
abbrev SG : Shape := ⟨2, ![256, 128]⟩

def linH (x : SN.Idx → EReal) (w : SW.Idx → EReal) : SN.Idx → EReal :=
  fun i => ∑ k : Fin 128, x (ix2 (i 0) k) * w (ix2 k (i 1))

def linSelf (x : SN.Idx → EReal) (w : SW.Idx → EReal) (d2 : SC.Idx → EReal) : SN.Idx → EReal :=
  fun i => linH x w i * d2 (ix2 (i 0) 0)

def xmid (agg self : SN.Idx → EReal) (b : SR.Idx → EReal) : SN.Idx → EReal :=
  fun i => (agg i + self i) + b (ix2 0 (i 1))

def colSum (v : SN.Idx → EReal) : SR.Idx → EReal :=
  fun j => ∑ n : Fin 50000, v (ix2 n (j 1))

def colSumSq (v : SN.Idx → EReal) : SR.Idx → EReal :=
  fun j => ∑ n : Fin 50000, v (ix2 n (j 1)) * v (ix2 n (j 1))

def bnAffine (x : SN.Idx → EReal) (mean inv g be : SR.Idx → EReal) : SN.Idx → EReal :=
  fun i => ((x i - mean (ix2 0 (i 1))) * inv (ix2 0 (i 1))) * g (ix2 0 (i 1)) + be (ix2 0 (i 1))

def bnRelu (x : SN.Idx → EReal) (mean inv g be : SR.Idx → EReal) : SN.Idx → EReal :=
  fun i => max (bnAffine x mean inv g be i) 0

def poolSum (h : SN.Idx → EReal) (seg : SC.Idx → BitVec 32) : SG.Idx → EReal :=
  fun j => ∑ n : Fin 50000, if seg (ix2 n 0) = BitVec.ofNat 32 (j 0).val then h (ix2 n (j 1)) else 0

end Cert.GCN

end
-- ==== Proof.LibScatterRead.lean ====
/-
  An accumulating scatter of the rows of [N, B] onto the rows of [R, B], the target rows named by a column [N, 1] of
  signed words, read at an entry: the operand's entry plus the sum of the entries of the rows sent there.
-/
import Idealize.ShloMosaic.Lib.ValueIdx

open scoped BigOperators

namespace Cert.SparseMM

open Idealize.ShloMosaic Idealize.ShloMosaic.ValueIdx

/-- An update lands on `i` exactly when on every axis its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      rw [← congrFun (Option.some.inj e) a]
      exact (Int.toNat_of_nonneg (h a).1).symm
    · intro e
      refine congrArg some (funext fun a => Fin.ext ?_)
      show (d.start j idx a + (d.window j a : Int)).toNat = (i a).val
      rw [e a]
      exact Int.toNat_natCast _
  · rename_i h
    refine ⟨nofun, fun e => absurd (fun a => ?_) h⟩
    rw [e a]
    exact ⟨Int.natCast_nonneg _, by exact_mod_cast (i a).isLt⟩

abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ :=
  ⟨[1], [0], [0], 1, wf⟩

abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ :=
  ⟨[1], [0], [], [], [0], 1, ![1, B], wf⟩

variable {R B N w : Nat} (wf : ScatterDims.WF ⟨2, ![R, B]⟩ ⟨2, ![N, 1]⟩ ⟨2, ![N, B]⟩ [1] [0] [0] 1)

theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  refine congrArg (fun i => (idx i).toInt) (funext fun a => Fin.ext ?_)
  match a with
  | ⟨0, _⟩ => rfl
  | ⟨1, _⟩ => rfl

theorem row_start1 (idx : IVec ⟨2, ![N, 1]⟩ w) (j : (⟨2, ![N, B]⟩ : Shape).Idx) :
    (rowDims R B N wf).start j idx 1 = 0 :=
  dif_neg (show ¬ ((1 : Fin 2) ∈ ([0] : List (Fin 2))) by decide)

theorem row_window0 (j : (⟨2, ![N, B]⟩ : Shape).Idx) : (rowDims R B N wf).window j 0 = 0 :=
  dif_neg (show ¬ ((0 : Fin 2) ∈ ((List.finRange 2).filter (· ∉ ([0] : List (Fin 2))))) by decide)

theorem row_window1 (k : Fin N) (b : Fin B) : (rowDims R B N wf).window (ix2 k b) 1 = b.val :=
  (dif_pos (show (1 : Fin 2) ∈ ((List.finRange 2).filter (· ∉ ([0] : List (Fin 2)))) by decide)).trans rfl

/-- Update (k, b') lands on (r, b) exactly when word k, read signed, is r and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  have e0 : (rowDims R B N wf).start (ix2 k b') idx 0 + ((rowDims R B N wf).window (ix2 k b') 0 : Int)
      = (idx (ix2 k 0)).toInt := by rw [row_start0, row_window0, Nat.cast_zero, add_zero]
  have e1 : (rowDims R B N wf).start (ix2 k b') idx 1 + ((rowDims R B N wf).window (ix2 k b') 1 : Int) = (b'.val : Int) := by
    rw [row_start1, row_window1, zero_add]
  refine ⟨fun h => ⟨e0.symm.trans (h 0), Fin.ext (Int.ofNat_inj.mp (e1.symm.trans (h 1)))⟩, fun h a => ?_⟩
  match a with
  | ⟨0, _⟩ => exact e0.trans h.1
  | ⟨1, _⟩ => exact e1.trans (congrArg (fun x : Fin B => (x.val : Int)) h.2)

theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, j ∈ Finset.univ.filter (fun j => (rowDims R B N wf).resultIdx? j idx = some (ix2 r b)) →
      (idx (ix2 (j 0 : Fin N) 0)).toInt = (r.val : Int) ∧ (j 1 : Fin B) = b := by
    intro j hj
    have hj := (Finset.mem_filter.mp hj).2
    rw [eq_ix2 j] at hj
    exact (row_lands_iff wf idx (j 0) (j 1) r b).mp hj
  refine Finset.sum_bij' (fun j _ => (j 0 : Fin N)) (fun k _ => ix2 k b) ?_ ?_ ?_ (fun _ _ => rfl) ?_
  · intro j hj
    exact Finset.mem_filter.mpr ⟨Finset.mem_univ _, (lands j hj).1⟩
  · intro k hk
    exact Finset.mem_filter.mpr ⟨Finset.mem_univ _,
      (row_lands_iff wf idx k b r b).mpr ⟨(Finset.mem_filter.mp hk).2, rfl⟩⟩
  · intro j hj
    show ix2 (j 0 : Fin N) b = j
    rw [← (lands j hj).2]
    exact (eq_ix2 j).symm
  · intro j hj
    show upd j = upd (ix2 (j 0 : Fin N) b)
    rw [← (lands j hj).2]
    exact congrArg upd (eq_ix2 j)

end Cert.SparseMM
-- ==== Proof.LibScatterVec.lean ====
/-
  The dimension numbers of the accumulating scatter of a vector [N] onto a vector [R], and of the gather from a
  vector [S], both at a column [N, 1] of start indices.
-/
import proofs.«428539_j48352741818636_1_alg».proof.Proof.LibScatterRead

namespace Cert.SparseVec

open Idealize.ShloMosaic

abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ :=
  ⟨[], [0], [0], 1, wf⟩

abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ :=
  ⟨[], [0], [], [], [0], 1, ![1], wf⟩

end Cert.SparseVec
-- ==== Proof.Stage.lean ====
/- The whole-array stretches of both programs as functions of arrays: inverse square-root degrees, edge weights, messages
   gathered along the edges and added onto their target rows, and the reference's layer with its mean and variance. -/
import Idealize.ShloMosaic.PureOps.Ideal
import Idealize.ShloMosaic.Lib.ValueIdx
import proofs.«428539_j48352741818636_1_alg».proof.Proof.Spec
import proofs.«428539_j48352741818636_1_alg».proof.Proof.LibScatterRead
import proofs.«428539_j48352741818636_1_alg».proof.Proof.LibScatterVec

noncomputable section

namespace Cert.GCN

open Idealize.ShloMosaic Idealize.ShloMosaic.ValueIdx

abbrev SE : Shape := ⟨1, ![600000]⟩
abbrev SEc : Shape := ⟨2, ![600000, 1]⟩
abbrev SEF : Shape := ⟨2, ![600000, 128]⟩
abbrev SV : Shape := ⟨1, ![50000]⟩
abbrev SCh : Shape := ⟨1, ![128]⟩
abbrev S0 : Shape := ⟨0, ![]⟩

abbrev rowD : ScatterDims SN SEc SEF := Cert.SparseMM.rowDims 50000 128 600000 (by decide)
abbrev rowG : GatherDims SN SEc SEF := Cert.SparseMM.rowGatherDims 50000 128 600000 (by decide)
abbrev vecD : ScatterDims SV SEc SE := Cert.SparseVec.vecDims 50000 600000 (by decide)
abbrev vecG : GatherDims SV SEc SE := Cert.SparseVec.vecGatherDims 50000 600000 (by decide)
abbrev dotD : DotDims SN SW SN where
  lhsContracting := [1]
  rhsContracting := [0]
  lhsNonContracting := [0]
  rhsNonContracting := [1]
  lhsBatch := []
  rhsBatch := []
  wf := by decide

abbrev splat (S : Shape) (h : S0.BroadcastsInDim S (![] : Fin 0 → Fin S.rank)) (w : BitVec 32) : FVec Ideal S .f32 :=
  broadcastInDim S ![] h (constant (F := Ideal) S0 .f32 w)

def normIdx (v : IVec SE 32) : IVec SE 32 :=
  select (cmpi .slt v (broadcastInDim SE ![] (by decide) (constantI S0 32 0#32)))
    (addi v (broadcastInDim SE ![] (by decide) (constantI S0 32 50000#32))) v

def colIdx (v : IVec SE 32) : IVec SEc 32 := broadcastInDim SEc ![0] (by decide) v

def degInv (dst : IVec SE 32) : FVec Ideal SV .f32 :=
  Host.rsqrt (addf (Host.scatterAdd vecD (splat SV (by decide) 0x00000000#32) (colIdx (normIdx dst))
    (splat SE (by decide) 0x3F800000#32)) (splat SV (by decide) 0x3F800000#32))

def edgeNorm (dinv : FVec Ideal SV .f32) (src dst : IVec SE 32) : FVec Ideal SE .f32 :=
  mulf (Host.gather vecG dinv (colIdx (normIdx src))) (Host.gather vecG dinv (colIdx (normIdx dst)))

def overChannels (en : FVec Ideal SE .f32) : FVec Ideal SEF .f32 :=
  broadcastInDim SEF ![0, 1] (by decide) (broadcastInDim SEc ![0] (by decide) en)

def msg (h : FVec Ideal SN .f32) (src : IVec SE 32) (en : FVec Ideal SE .f32) : FVec Ideal SEF .f32 :=
  mulf (Host.gather rowG h (colIdx (normIdx src))) (overChannels en)

def msgNarrow (h : FVec Ideal SN .bf16) (src : IVec SE 32) (en : FVec Ideal SE .f32) : FVec Ideal SEF .f32 :=
  mulf (extf .f32 (Host.gather rowG h (colIdx (normIdx src))) (by decide)) (overChannels en)

def aggAt (idx : IVec SEc 32) (m : FVec Ideal SEF .f32) : FVec Ideal SN .f32 :=
  Host.scatterAdd rowD (splat SN (by decide) 0x00000000#32) idx m

def nodeCol (v : FVec Ideal SV .f32) : FVec Ideal SC .f32 := shapeCast SC v (by decide)

def chanRow (v : FVec Ideal SCh .f32) : FVec Ideal SR .f32 := shapeCast SR v (by decide)

def chanRowB (v : FVec Ideal SCh .f32) : FVec Ideal SR .f32 := broadcastInDim SR ![1] (by decide) v

def overNodes (r : FVec Ideal SR .f32) : FVec Ideal SN .f32 := broadcastInDim SN ![0, 1] (by decide) r

def nodeOver (v : FVec Ideal SV .f32) : FVec Ideal SN .f32 :=
  broadcastInDim SN ![0, 1] (by decide) (broadcastInDim SC ![0] (by decide) v)

def kMean (s : FVec Ideal SR .f32) : FVec Ideal SR .f32 := Host.divf s (splat SR (by decide) 0x47435000#32)

def kVar (s ss : FVec Ideal SR .f32) : FVec Ideal SR .f32 :=
  subf (Host.divf ss (splat SR (by decide) 0x47435000#32)) (mulf (kMean s) (kMean s))

def kInv (s ss : FVec Ideal SR .f32) : FVec Ideal SR .f32 :=
  Host.rsqrt (addf (kVar s ss) (splat SR (by decide) 0x3727C5AC#32))

def rPre (x : FVec Ideal SN .f32) (w : FVec Ideal SW .f32) (b : FVec Ideal SCh .f32) (dinv : FVec Ideal SV .f32)
    (src dst : IVec SE 32) : FVec Ideal SN .f32 :=
  addf (addf (aggAt (colIdx (normIdx dst)) (msg (Host.dotGeneral dotD none x w) src (edgeNorm dinv src dst)))
    (mulf (Host.dotGeneral dotD none x w) (nodeOver (mulf dinv dinv)))) (overNodes (chanRowB b))

def rMean (x1 : FVec Ideal SN .f32) : FVec Ideal SCh .f32 :=
  Host.divf (Host.reduceAdd x1 (constant (F := Ideal) S0 .f32 0x00000000#32) (by decide : SN.ReducesTo [0] SCh) (by decide)) (splat SCh (by decide) 0x47435000#32)

def rVar (x1 : FVec Ideal SN .f32) : FVec Ideal SCh .f32 :=
  let dof : FVec Ideal S0 .f32 := subf (constant (F := Ideal) S0 .f32 0x47435000#32) (sitofp .f32 (constantI S0 32 0#32))
  let dev : FVec Ideal SN .f32 := subf x1 (overNodes (Host.divf (chanRowB (Host.reduceAdd x1 (constant (F := Ideal) S0 .f32 0x00000000#32) (by decide : SN.ReducesTo [0] SCh) (by decide))) (splat SR (by decide) 0x47435000#32)))
  select (broadcastInDim SCh ![] (by decide) (cmpf .ogt dof (constant (F := Ideal) S0 .f32 0x00000000#32)))
    (Host.divf (Host.reduceAdd (mulf dev dev) (constant (F := Ideal) S0 .f32 0x00000000#32) (by decide : SN.ReducesTo [0] SCh) (by decide)) (broadcastInDim SCh ![] (by decide) dof))
    (broadcastInDim SCh ![] (by decide) (id (constant (F := Ideal) S0 .f32 0x7FC00000#32)))

def rNorm (x1 : FVec Ideal SN .f32) (g be : FVec Ideal SCh .f32) : FVec Ideal SN .f32 :=
  addf (mulf (mulf (subf x1 (overNodes (chanRowB (rMean x1))))
      (overNodes (chanRowB (Host.rsqrt (addf (rVar x1) (splat SCh (by decide) 0x3727C5AC#32))))))
    (overNodes (chanRowB g))) (overNodes (chanRowB be))

def rRelu (y : FVec Ideal SN .f32) : FVec Ideal SN .f32 := maximumf y (splat SN (by decide) 0x00000000#32)

end Cert.GCN

end
-- ==== Proof.Whole.lean ====
/- Both programs whole, as functions of the argument arrays: three layers, the last without the clip at zero, then each
   group's sum of rows divided by the group's size, at least one. -/
import proofs.«428539_j48352741818636_1_alg».proof.Proof.Stage

noncomputable section

namespace Cert.GCN

open Idealize.ShloMosaic Idealize.ShloMosaic.ValueIdx

abbrev SEI : Shape := ⟨2, ![2, 600000]⟩
abbrev S1E : Shape := ⟨2, ![1, 600000]⟩
abbrev S1 : Shape := ⟨1, ![1]⟩
abbrev SGv : Shape := ⟨1, ![256]⟩
abbrev SGc : Shape := ⟨2, ![256, 1]⟩

abbrev poolD : ScatterDims SG SC SN := Cert.SparseMM.rowDims 256 128 50000 (by decide)
abbrev cntD : ScatterDims SGv SC SV := Cert.SparseVec.vecDims 256 50000 (by decide)

def srcOf (ei : IVec SEI 32) : IVec SE 32 := shapeCast SE (extractStridedSlice S1E ![0, 0] ei (by decide)) (by decide)
def dstOf (ei : IVec SEI 32) : IVec SE 32 := shapeCast SE (extractStridedSlice S1E ![1, 0] ei (by decide)) (by decide)
def segOf (batch : IVec SV 32) : IVec SV 32 :=
  subi batch (broadcastInDim SV ![] (by decide) (shapeCast S0 (extractStridedSlice S1 ![0] batch (by decide)) (by decide)))

def cntDiv (sums : FVec Ideal SG .f32) (seg : IVec SV 32) : FVec Ideal SG .f32 :=
  Host.divf sums (broadcastInDim SG ![0, 1] (by decide) (broadcastInDim SGc ![0] (by decide)
    (maximumf (Host.scatterAdd cntD (splat SGv (by decide) 0x00000000#32) (broadcastInDim SC ![0] (by decide) seg)
      (splat SV (by decide) 0x3F800000#32)) (splat SGv (by decide) 0x3F800000#32))))

def rPoolSum (h : FVec Ideal SN .f32) (seg : IVec SV 32) : FVec Ideal SG .f32 :=
  Host.scatterAdd poolD (splat SG (by decide) 0x00000000#32) (broadcastInDim SC ![0] (by decide) seg) h

def rFinal (x : FVec Ideal SN .f32) (ei : IVec SEI 32) (batch : IVec SV 32)
    (W1 : FVec Ideal SW .f32) (b1 g1 be1 : FVec Ideal SCh .f32) (Wm : FVec Ideal SW .f32) (bm gm bem : FVec Ideal SCh .f32)
    (W2 : FVec Ideal SW .f32) (b2 g2 be2 : FVec Ideal SCh .f32) : FVec Ideal SG .f32 :=
  let src := srcOf ei
  let dst := dstOf ei
  let dinv := degInv dst
  let h1 := rRelu (rNorm (rPre x W1 b1 dinv src dst) g1 be1)
  let h2 := rRelu (rNorm (rPre h1 Wm bm dinv src dst) gm bem)
  let h3 := rNorm (rPre h2 W2 b2 dinv src dst) g2 be2
  cntDiv (rPoolSum h3 (segOf batch)) (segOf batch)

def kPre (x : FVec Ideal SN .f32) (w : FVec Ideal SW .f32) (b : FVec Ideal SCh .f32) (dinv : FVec Ideal SV .f32)
    (src dst : IVec SE 32) : SN.Idx → EReal :=
  xmid (aggAt (colIdx dst) (msgNarrow (linH x w) src (edgeNorm dinv src dst)))
    (linSelf x w (nodeCol (mulf dinv dinv))) (chanRow b)

def kNormRelu (xm : SN.Idx → EReal) (g be : FVec Ideal SCh .f32) : SN.Idx → EReal :=
  bnRelu xm (kMean (colSum xm)) (kInv (colSum xm) (colSumSq xm)) (chanRow g) (chanRow be)
def kNorm (xm : SN.Idx → EReal) (g be : FVec Ideal SCh .f32) : SN.Idx → EReal :=
  bnAffine xm (kMean (colSum xm)) (kInv (colSum xm) (colSumSq xm)) (chanRow g) (chanRow be)

def kFinal (x : FVec Ideal SN .f32) (ei : IVec SEI 32) (batch : IVec SV 32)
    (W1 : FVec Ideal SW .f32) (b1 g1 be1 : FVec Ideal SCh .f32) (Wm : FVec Ideal SW .f32) (bm gm bem : FVec Ideal SCh .f32)
    (W2 : FVec Ideal SW .f32) (b2 g2 be2 : FVec Ideal SCh .f32) : FVec Ideal SG .f32 :=
  let src := srcOf ei
  let dst := dstOf ei
  let dinv := degInv dst
  let h1 := kNormRelu (kPre x W1 b1 dinv src dst) g1 be1
  let h2 := kNormRelu (kPre h1 Wm bm dinv src dst) gm bem
  let h3 := kNorm (kPre h2 W2 b2 dinv src dst) g2 be2
  cntDiv (poolSum h3 (shapeCast SC (segOf batch) (by decide))) (segOf batch)

end Cert.GCN

end
-- ==== Proof.RChain0.lean ====
/- The reference's first two windows read buffer by buffer: what a stretch of operations leaves in a buffer as a function of
   what it found in the buffers it reads; a stretch writes only buffers of larger index, so the earlier ones are kept. -/
import proofs.«428539_j48352741818636_1_alg».proof.Proof.RefRunOps
import proofs.«428539_j48352741818636_1_alg».proof.Proof.Whole
import Idealize.ShloMosaic.Lib.StableHlo.Run
import Idealize.ShloMosaic.Lib.Pipeline.Frame

set_option Elab.async false

noncomputable section

namespace Cert.ReferenceIdeal.RChain

open Idealize.ShloMosaic Idealize.ShloMosaic.StableHlo Cert.GCN Cert.ReferenceIdeal Cert.ReferenceIdeal.Gen Cert.ReferenceIdeal.RefRun

abbrev Vl := Valuation τ sig (Elt Ideal)
abbrev dr (r : Ref sig .tc) : DevRef τ sig := Proc.devRef .tc r
abbrev lin (x : FVec Ideal SN .f32) (w : FVec Ideal SW .f32) : FVec Ideal SN .f32 := Host.dotGeneral dotD none x w

abbrev WritesFrom (n : Nat) (op : HloOp τ sig (Elt Ideal)) : Prop :=
  ∀ b ∈ op.writes, ∃ y : Ref sig .tc, b = Proc.devRef .tc y ∧ n ≤ y.idx.val

theorem after_below (n : Nat) (l : List (HloOp τ sig (Elt Ideal))) (V : Vl)
    (h : l.Forall (WritesFrom n)) (r : Ref sig .tc) (hr : r.idx.val < n) : after l V (dr r) = V (dr r) :=
  after_of_forall_not_mem l V fun op hop hb => by
    obtain ⟨y, he, hy⟩ := (List.forall_iff_forall_mem.mp h) op hop _ hb
    have e : r = y := Proc.devRef_injective _ he
    subst e; omega

theorem from_take {n : Nat} {l : List (HloOp τ sig (Elt Ideal))} (h : l.Forall (WritesFrom n)) (k : Nat) :
    (l.take k).Forall (WritesFrom n) :=
  List.forall_iff_forall_mem.mpr fun op hop => List.forall_iff_forall_mem.mp h op (List.mem_of_mem_take hop)

theorem from_drop {n : Nat} {l : List (HloOp τ sig (Elt Ideal))} (h : l.Forall (WritesFrom n)) (k : Nat) :
    (l.drop k).Forall (WritesFrom n) :=
  List.forall_iff_forall_mem.mpr fun op hop => List.forall_iff_forall_mem.mp h op (List.mem_of_mem_drop hop)

theorem from01 : (ops0 (F := Ideal)).Forall (WritesFrom 16) ∧ (ops1 (F := Ideal)).Forall (WritesFrom 37) := by
  simp only [ops0, ops1, List.Forall, WritesFrom, nullary_writes, unary_writes, binary_writes, ternary_writes, reshape_writes,
    Finset.mem_singleton, forall_eq]
  repeat' apply And.intro
  all_goals exact ⟨_, rfl, by decide⟩

def A0 (V : Vl) : Vl := after (ops0 (F := Ideal)) V

theorem a0_v1 (V : Vl) : A0 V (dr main_v1) = srcOf (V (dr main_arg1)) := by
  simp only [A0, ops0]
  after_results_simp <;> rfl

theorem a0_v3 (V : Vl) : A0 V (dr main_v3) = dstOf (V (dr main_arg1)) := by
  simp only [A0, ops0]
  after_results_simp <;> rfl

theorem a0_v15 (V : Vl) : A0 V (dr main_v15) = degInv (A0 V (dr main_v3)) := by
  simp only [A0, ops0]
  after_results_simp <;> rfl

theorem a0_v16 (V : Vl) : A0 V (dr main_v16) = lin (V (dr main_arg0)) (V (dr main_arg4)) := by
  simp only [A0, ops0]
  after_results_simp <;> rfl

theorem a0_v41 (V : Vl) : A0 V (dr main_v41)
    = msg (A0 V (dr main_v16)) (A0 V (dr main_v1)) (edgeNorm (A0 V (dr main_v15)) (A0 V (dr main_v1)) (A0 V (dr main_v3))) := by
  simp only [A0, ops0]
  after_results_simp <;> rfl

theorem a0_v42 (V : Vl) : A0 V (dr main_v42) = splat SN (by decide) 0x00000000#32 := by
  simp only [A0, ops0]
  after_results_simp <;> rfl

theorem a0_v44 (V : Vl) : A0 V (dr main_v44)
    = cmpi .slt (A0 V (dr main_v3) : IVec SE 32) (broadcastInDim SE ![] (by decide) (constantI S0 32 0#32)) := by
  simp only [A0, ops0]
  after_results_simp <;> rfl

theorem a0_v45 (V : Vl) : A0 V (dr main_v45) = (broadcastInDim SE ![] (by decide) (constantI S0 32 50000#32) : IVec SE 32) := by
  simp only [A0, ops0]
  after_results_simp <;> rfl

theorem a0_keep (V : Vl) (r : Ref sig .tc) (hr : r.idx.val < 16) : A0 V (dr r) = V (dr r) :=
  after_below 16 _ V from01.1 r hr

def B1a (V : Vl) : Vl := after (List.take 12 (ops1 (F := Ideal))) V
def B1b (V : Vl) : Vl := after (List.take 47 (List.drop 12 (ops1 (F := Ideal)))) V
def B1c (V : Vl) : Vl := after (List.drop 47 (List.drop 12 (ops1 (F := Ideal)))) V

theorem a1_split (V : Vl) : after (ops1 (F := Ideal)) V = B1c (B1b (B1a V)) := by
  unfold B1a B1b B1c
  rw [← after_append, ← after_append, List.take_append_drop, List.take_append_drop]

theorem b1a_keep (V : Vl) (r : Ref sig .tc) (hr : r.idx.val < 37) : B1a V (dr r) = V (dr r) :=
  after_below 37 _ V (from_take from01.2 _) r hr
theorem b1b_keep (V : Vl) (r : Ref sig .tc) (hr : r.idx.val < 37) : B1b V (dr r) = V (dr r) :=
  after_below 37 _ V (from_take (from_drop from01.2 _) _) r hr
theorem b1c_keep (V : Vl) (r : Ref sig .tc) (hr : r.idx.val < 37) : B1c V (dr r) = V (dr r) :=
  after_below 37 _ V (from_drop (from_drop from01.2 _) _) r hr

theorem b1a_v57 (V : Vl) : B1a V (dr main_v57)
    = addf (addf (Host.scatterAdd rowD (V (dr main_v42))
          (colIdx (select (V (dr main_v44)) (addi (V (dr main_v3)) (V (dr main_v45))) (V (dr main_v3)))) (V (dr main_v41)))
        (mulf (V (dr main_v16)) (nodeOver (mulf (V (dr main_v15)) (V (dr main_v15))))))
      (overNodes (chanRowB (V (dr main_arg5)))) := by
  simp only [B1a, ops1, List.take_succ_cons, List.take_zero, List.drop_succ_cons, List.drop_zero]
  after_results_simp <;> rfl

theorem b1b_v77 (V : Vl) : B1b V (dr main_v77) = rRelu (rNorm (V (dr main_v57)) (V (dr main_arg6)) (V (dr main_arg7))) := by
  simp only [B1b, ops1, List.take_succ_cons, List.take_zero, List.drop_succ_cons, List.drop_zero]
  after_results_simp <;> rfl

theorem b1c_v78 (V : Vl) : B1c V (dr main_v78) = lin (V (dr main_v77)) (V (dr main_arg8)) := by
  simp only [B1c, ops1, List.take_succ_cons, List.take_zero, List.drop_succ_cons, List.drop_zero]
  after_results_simp <;> rfl

theorem b1c_v93 (V : Vl) : B1c V (dr main_v93) = edgeNorm (V (dr main_v15)) (V (dr main_v1)) (V (dr main_v3)) := by
  simp only [B1c, ops1, List.take_succ_cons, List.take_zero, List.drop_succ_cons, List.drop_zero]
  after_results_simp <;> rfl

theorem b1c_v95 (V : Vl) : B1c V (dr main_v95)
    = cmpi .slt (V (dr main_v1) : IVec SE 32) (broadcastInDim SE ![] (by decide) (constantI S0 32 0#32)) := by
  simp only [B1c, ops1, List.take_succ_cons, List.take_zero, List.drop_succ_cons, List.drop_zero]
  after_results_simp <;> rfl

theorem b1c_c_21 (V : Vl) : B1c V (dr main_c_21) = (constantI S0 32 50000#32 : IVec S0 32) := by
  simp only [B1c, ops1, List.take_succ_cons, List.take_zero, List.drop_succ_cons, List.drop_zero]
  after_results_simp <;> rfl

end Cert.ReferenceIdeal.RChain
end
-- ==== Proof.RChain1.lean ====
/- The reference's third window, and the fourth up to the third layer's array before normalisation, read the same way. -/
import proofs.«428539_j48352741818636_1_alg».proof.Proof.RChain0

set_option Elab.async false

noncomputable section

namespace Cert.ReferenceIdeal.RChain

open Idealize.ShloMosaic Idealize.ShloMosaic.StableHlo Cert.GCN Cert.ReferenceIdeal Cert.ReferenceIdeal.Gen Cert.ReferenceIdeal.RefRun

theorem from23 : (ops2 (F := Ideal)).Forall (WritesFrom 37) ∧ (ops3 (F := Ideal)).Forall (WritesFrom 37) := by
  simp only [ops2, ops3, List.Forall, WritesFrom, nullary_writes, unary_writes, binary_writes, ternary_writes, reshape_writes,
    Finset.mem_singleton, forall_eq]
  repeat' apply And.intro
  all_goals exact ⟨_, rfl, by decide⟩

def B2a (V : Vl) : Vl := after (List.take 27 (ops2 (F := Ideal))) V
def B2b (V : Vl) : Vl := after (List.take 47 (List.drop 27 (ops2 (F := Ideal)))) V
def B2c (V : Vl) : Vl := after (List.drop 47 (List.drop 27 (ops2 (F := Ideal)))) V

theorem a2_split (V : Vl) : after (ops2 (F := Ideal)) V = B2c (B2b (B2a V)) := by
  unfold B2a B2b B2c
  rw [← after_append, ← after_append, List.take_append_drop, List.take_append_drop]

theorem b2a_keep (V : Vl) (r : Ref sig .tc) (hr : r.idx.val < 37) : B2a V (dr r) = V (dr r) :=
  after_below 37 _ V (from_take from23.1 _) r hr
theorem b2b_keep (V : Vl) (r : Ref sig .tc) (hr : r.idx.val < 37) : B2b V (dr r) = V (dr r) :=
  after_below 37 _ V (from_take (from_drop from23.1 _) _) r hr
theorem b2c_keep (V : Vl) (r : Ref sig .tc) (hr : r.idx.val < 37) : B2c V (dr r) = V (dr r) :=
  after_below 37 _ V (from_drop (from_drop from23.1 _) _) r hr

theorem b2a_v119 (V : Vl) : B2a V (dr main_v119)
    = addf (addf (aggAt (colIdx (normIdx (V (dr main_v3))))
          (mulf (Host.gather rowG (V (dr main_v78))
              (colIdx (select (V (dr main_v95)) (addi (V (dr main_v1)) (broadcastInDim SE ![] (by decide) (V (dr main_c_21)))) (V (dr main_v1)))))
            (overChannels (V (dr main_v93)))))
        (mulf (V (dr main_v78)) (nodeOver (mulf (V (dr main_v15)) (V (dr main_v15))))))
      (overNodes (chanRowB (V (dr main_arg9)))) := by
  simp only [B2a, ops2, List.take_succ_cons, List.take_zero, List.drop_succ_cons, List.drop_zero]
  after_results_simp <;> rfl

theorem b2b_v139 (V : Vl) : B2b V (dr main_v139) = rRelu (rNorm (V (dr main_v119)) (V (dr main_arg10)) (V (dr main_arg11))) := by
  simp only [B2b, ops2, List.take_succ_cons, List.take_zero, List.drop_succ_cons, List.drop_zero]
  after_results_simp <;> rfl

theorem b2c_v140 (V : Vl) : B2c V (dr main_v140) = lin (V (dr main_v139)) (V (dr main_arg12)) := by
  simp only [B2c, ops2, List.take_succ_cons, List.take_zero, List.drop_succ_cons, List.drop_zero]
  after_results_simp <;> rfl

theorem b2c_v146 (V : Vl) : B2c V (dr main_v146) = colIdx (normIdx (V (dr main_v1))) := by
  simp only [B2c, ops2, List.take_succ_cons, List.take_zero, List.drop_succ_cons, List.drop_zero]
  after_results_simp <;> rfl

def B3a (V : Vl) : Vl := after (List.take 42 (ops3 (F := Ideal))) V

theorem a3_split (V : Vl) :
    after (ops4 (F := Ideal)) (after (ops3 (F := Ideal)) V) = after (List.drop 42 (ops3 (F := Ideal)) ++ ops4 (F := Ideal)) (B3a V) := by
  unfold B3a
  rw [after_append, ← after_append (List.take 42 ops3) (List.drop 42 ops3), List.take_append_drop]

theorem b3a_keep (V : Vl) (r : Ref sig .tc) (hr : r.idx.val < 37) : B3a V (dr r) = V (dr r) :=
  after_below 37 _ V (from_take from23.2 _) r hr

theorem b3a_v181 (V : Vl) : B3a V (dr main_v181)
    = addf (addf (aggAt (colIdx (normIdx (V (dr main_v3))))
          (mulf (Host.gather rowG (V (dr main_v140)) (colIdx (normIdx (V (dr main_v1)))))
            (overChannels (mulf (Host.gather vecG (V (dr main_v15)) (V (dr main_v146)))
              (Host.gather vecG (V (dr main_v15)) (colIdx (normIdx (V (dr main_v3)))))))))
        (mulf (V (dr main_v140)) (nodeOver (mulf (V (dr main_v15)) (V (dr main_v15))))))
      (overNodes (chanRowB (V (dr main_arg13)))) := by
  simp only [B3a, ops3, List.take_succ_cons, List.take_zero, List.drop_succ_cons, List.drop_zero]
  after_results_simp <;> rfl

end Cert.ReferenceIdeal.RChain
end
-- ==== Proof.RTail.lean ====
/- What the reference's last operations leave in the result buffer, from any contents holding the third layer's array
   before normalisation: the mean, the variance, the normalisation, and the mean over each group, a line each. -/
import proofs.«428539_j48352741818636_1_alg».proof.Proof.RChain0

set_option Elab.async false

noncomputable section

namespace Cert.ReferenceIdeal.RChain

open Idealize.ShloMosaic Idealize.ShloMosaic.StableHlo Cert.GCN Cert.ReferenceIdeal Cert.ReferenceIdeal.Gen Cert.ReferenceIdeal.RefRun

abbrev lineMean : List (HloOp τ sig (Elt Ideal)) := List.take 5 (List.drop 42 ops3)
abbrev lineVar : List (HloOp τ sig (Elt Ideal)) := List.take 23 (List.drop 47 ops3)
abbrev lineNorm : List (HloOp τ sig (Elt Ideal)) := List.drop 70 ops3 ++ List.take 5 ops4
abbrev linePool : List (HloOp τ sig (Elt Ideal)) := List.drop 5 ops4

theorem tail_lines : List.drop 42 (ops3 (F := Ideal)) ++ ops4 = lineMean ++ (lineVar ++ (lineNorm ++ linePool)) := rfl

theorem mean_v184 (V : Vl) : after lineMean V (dr main_v184) = rMean (V (dr main_v181)) := by
  simp only [lineMean, ops3, List.take_succ_cons, List.take_zero, List.drop_succ_cons, List.drop_zero]
  after_results
  rfl

theorem mean_keep (V : Vl) : after lineMean V (dr main_v181) = V (dr main_v181)
    ∧ after lineMean V (dr main_arg14) = V (dr main_arg14) ∧ after lineMean V (dr main_arg15) = V (dr main_arg15)
    ∧ after lineMean V (dr main_arg3) = V (dr main_arg3) := by
  simp only [lineMean, ops3, List.take_succ_cons, List.take_zero, List.drop_succ_cons, List.drop_zero]
  refine ⟨?_, ?_, ?_, ?_⟩ <;> after_results

theorem var_v185 (V : Vl) : after lineVar V (dr main_v185) = rVar (V (dr main_v181)) := by
  simp only [lineVar, ops3, List.take_succ_cons, List.take_zero, List.drop_succ_cons, List.drop_zero]
  after_results
  rfl

theorem var_keep (V : Vl) : after lineVar V (dr main_v181) = V (dr main_v181)
    ∧ after lineVar V (dr main_v184) = V (dr main_v184) ∧ after lineVar V (dr main_arg14) = V (dr main_arg14)
    ∧ after lineVar V (dr main_arg15) = V (dr main_arg15) ∧ after lineVar V (dr main_arg3) = V (dr main_arg3) := by
  simp only [lineVar, ops3, List.take_succ_cons, List.take_zero, List.drop_succ_cons, List.drop_zero]
  refine ⟨?_, ?_, ?_, ?_, ?_⟩ <;> after_results

def normOf (x1 : FVec Ideal SN .f32) (m v g be : FVec Ideal SCh .f32) : FVec Ideal SN .f32 :=
  addf (mulf (mulf (subf x1 (overNodes (chanRowB m)))
      (overNodes (chanRowB (Host.rsqrt (addf v (splat SCh (by decide) 0x3727C5AC#32))))))
    (overNodes (chanRowB g))) (overNodes (chanRowB be))

theorem rNorm_eq (x1 : FVec Ideal SN .f32) (g be : FVec Ideal SCh .f32) :
    rNorm x1 g be = normOf x1 (rMean x1) (rVar x1) g be := rfl

set_option maxHeartbeats 4000000 in
theorem norm_v200 (V : Vl) : after lineNorm V (dr main_v200)
    = normOf (V (dr main_v181)) (V (dr main_v184)) (V (dr main_v185)) (V (dr main_arg14)) (V (dr main_arg15)) := by
  simp only [lineNorm, ops3, ops4, List.take_succ_cons, List.take_zero, List.drop_succ_cons, List.drop_zero, List.cons_append, List.nil_append]
  after_results
  rfl

theorem norm_arg3 (V : Vl) : after lineNorm V (dr main_arg3) = V (dr main_arg3) := by
  simp only [lineNorm, ops3, ops4, List.take_succ_cons, List.take_zero, List.drop_succ_cons, List.drop_zero, List.cons_append, List.nil_append]
  after_results

set_option maxHeartbeats 4000000 in
theorem pool_v216 (V : Vl) : after linePool V (dr main_v216)
    = cntDiv (rPoolSum (V (dr main_v200)) (segOf (V (dr main_arg3)))) (segOf (V (dr main_arg3))) := by
  simp only [linePool, ops4, List.take_succ_cons, List.take_zero, List.drop_succ_cons, List.drop_zero]
  after_results
  rfl

theorem tail_eq (R : Vl) (x1 : FVec Ideal SN .f32) (hx1 : R (dr main_v181) = x1) :
    after (List.drop 42 (ops3 (F := Ideal)) ++ ops4 (F := Ideal)) R (dr main_v216)
      = cntDiv (rPoolSum (rNorm x1 (R (dr main_arg14)) (R (dr main_arg15))) (segOf (R (dr main_arg3)))) (segOf (R (dr main_arg3))) := by
  rw [tail_lines, after_append, after_append, after_append, pool_v216, norm_v200, norm_arg3, var_v185, (var_keep _).1,
    (var_keep _).2.1, (var_keep _).2.2.1, (var_keep _).2.2.2.1, (var_keep _).2.2.2.2, mean_v184, (mean_keep _).1,
    (mean_keep _).2.1, (mean_keep _).2.2.1, (mean_keep _).2.2.2, hx1, rNorm_eq]

end Cert.ReferenceIdeal.RChain

end
-- ==== Proof.RChain.lean ====
/- The reference's result buffer after the whole run is the reference's function of the argument arrays: each
   stretch's reading of an earlier value is replaced by that value's own expression, down to the arguments. -/
import proofs.«428539_j48352741818636_1_alg».proof.Proof.RChain1
import proofs.«428539_j48352741818636_1_alg».proof.Proof.RTail

set_option Elab.async false

noncomputable section

namespace Cert.ReferenceIdeal.RChain

open Idealize.ShloMosaic Idealize.ShloMosaic.StableHlo Cert.GCN Cert.ReferenceIdeal Cert.ReferenceIdeal.Gen Cert.ReferenceIdeal.RefRun

/-- Every operation writes the buffer of the value it defines, and a value's reference has index 16 or more. -/
theorem high : (ops (F := Ideal)).Forall (WritesFrom 16) := by
  simp only [ops, List.forall_append]
  simp only [ops0, ops1, ops2, ops3, ops4, List.Forall, WritesFrom, nullary_writes, unary_writes, binary_writes,
    ternary_writes, reshape_writes, Finset.mem_singleton, forall_eq]
  repeat' apply And.intro
  all_goals exact ⟨_, rfl, by decide⟩

/-- So the sixteen arguments, the references of index below 16, are after the run what they were before it. -/
theorem arg_eq_of_low (V0 : Vl) (r : Ref sig .tc) (hr : r.idx.val < 16) : after (ops (F := Ideal)) V0 (dr r) = V0 (dr r) :=
  after_below 16 _ V0 high r hr

theorem ops_split (V0 : Vl) : after (ops (F := Ideal)) V0
    = after (List.drop 42 (ops3 (F := Ideal)) ++ ops4 (F := Ideal)) (B3a (B2c (B2b (B2a (B1c (B1b (B1a (A0 V0)))))))) := by
  show after (ops0 ++ ops1 ++ ops2 ++ ops3 ++ ops4) V0 = _
  rw [after_append (ops0 ++ ops1 ++ ops2 ++ ops3) ops4, after_append (ops0 ++ ops1 ++ ops2) ops3,
    after_append (ops0 ++ ops1) ops2, after_append ops0 ops1, a3_split, a2_split, a1_split]
  rfl

theorem result_of (V0 : Vl)
    (x : FVec Ideal SN .f32) (hx : V0 (dr main_arg0) = x) (ei : IVec SEI 32) (hei : V0 (dr main_arg1) = ei)
    (batch : IVec SV 32) (hbatch : V0 (dr main_arg3) = batch)
    (w1 : FVec Ideal SW .f32) (hw1 : V0 (dr main_arg4) = w1)
    (b1 g1 be1 : FVec Ideal SCh .f32) (hb1 : V0 (dr main_arg5) = b1) (hg1 : V0 (dr main_arg6) = g1) (hbe1 : V0 (dr main_arg7) = be1)
    (wm : FVec Ideal SW .f32) (hwm : V0 (dr main_arg8) = wm)
    (bm gm bem : FVec Ideal SCh .f32) (hbm : V0 (dr main_arg9) = bm) (hgm : V0 (dr main_arg10) = gm) (hbem : V0 (dr main_arg11) = bem)
    (w2 : FVec Ideal SW .f32) (hw2 : V0 (dr main_arg12) = w2)
    (b2 g2 be2 : FVec Ideal SCh .f32) (hb2 : V0 (dr main_arg13) = b2) (hg2 : V0 (dr main_arg14) = g2) (hbe2 : V0 (dr main_arg15) = be2) :
    after (ops (F := Ideal)) V0 (dr main_v216) = rFinal x ei batch w1 b1 g1 be1 wm bm gm bem w2 b2 g2 be2 := by
  rw [ops_split]
  have k1 := fun (r : Ref sig .tc) (h : r.idx.val < 37) => b1a_keep (A0 V0) r h
  have k2 := fun r h => (b1b_keep _ r h).trans (k1 r h)
  have k3 := fun r h => (b1c_keep _ r h).trans (k2 r h)
  have k4 := fun r h => (b2a_keep _ r h).trans (k3 r h)
  have k5 := fun r h => (b2b_keep _ r h).trans (k4 r h)
  have k6 := fun r h => (b2c_keep _ r h).trans (k5 r h)
  have k7 := fun r h => (b3a_keep _ r h).trans (k6 r h)
  have e_src : A0 V0 (dr main_v1) = srcOf ei := by rw [a0_v1, hei]
  have e_dst : A0 V0 (dr main_v3) = dstOf ei := by rw [a0_v3, hei]
  have e_dinv : A0 V0 (dr main_v15) = degInv (dstOf ei) := by rw [a0_v15, e_dst]
  have e_lin1 : A0 V0 (dr main_v16) = lin x w1 := by rw [a0_v16, hx, hw1]
  have e_x1 : B1a (A0 V0) (dr main_v57) = rPre x w1 b1 (degInv (dstOf ei)) (srcOf ei) (dstOf ei) := by
    rw [b1a_v57, a0_v42, a0_v44, a0_v45, a0_v41, e_lin1, e_dinv, e_dst, e_src, a0_keep _ main_arg5 (by decide), hb1]
    rfl
  have e_h1 : B1b (B1a (A0 V0)) (dr main_v77) = rRelu (rNorm (rPre x w1 b1 (degInv (dstOf ei)) (srcOf ei) (dstOf ei)) g1 be1) := by
    rw [b1b_v77, e_x1, k1 main_arg6 (by decide), a0_keep _ main_arg6 (by decide), k1 main_arg7 (by decide),
      a0_keep _ main_arg7 (by decide), hg1, hbe1]
  have e_lin2 : B1c (B1b (B1a (A0 V0))) (dr main_v78) = lin (rRelu (rNorm (rPre x w1 b1 (degInv (dstOf ei)) (srcOf ei) (dstOf ei)) g1 be1)) wm := by
    rw [b1c_v78, e_h1, k2 main_arg8 (by decide), a0_keep _ main_arg8 (by decide), hwm]
  have e_en1 : B1c (B1b (B1a (A0 V0))) (dr main_v93) = edgeNorm (degInv (dstOf ei)) (srcOf ei) (dstOf ei) := by
    rw [b1c_v93, k2 main_v15 (by decide), k2 main_v1 (by decide), k2 main_v3 (by decide), e_dinv, e_src, e_dst]
  have e_lt1 : B1c (B1b (B1a (A0 V0))) (dr main_v95)
      = cmpi .slt (srcOf ei) (broadcastInDim SE ![] (by decide) (constantI S0 32 0#32)) := by
    rw [b1c_v95, k2 main_v1 (by decide), e_src]
  have e_x2 : B2a (B1c (B1b (B1a (A0 V0)))) (dr main_v119) = rPre (rRelu (rNorm (rPre x w1 b1 (degInv (dstOf ei)) (srcOf ei) (dstOf ei)) g1 be1)) wm bm (degInv (dstOf ei)) (srcOf ei) (dstOf ei) := by
    rw [b2a_v119, e_lt1, b1c_c_21, e_lin2, e_en1, k3 main_v15 (by decide), k3 main_v3 (by decide), k3 main_v1 (by decide),
      e_dinv, e_dst, e_src, k3 main_arg9 (by decide), a0_keep _ main_arg9 (by decide), hbm]
    rfl
  have e_h2 : B2b (B2a (B1c (B1b (B1a (A0 V0))))) (dr main_v139) = rRelu (rNorm (rPre (rRelu (rNorm (rPre x w1 b1 (degInv (dstOf ei)) (srcOf ei) (dstOf ei)) g1 be1)) wm bm (degInv (dstOf ei)) (srcOf ei) (dstOf ei)) gm bem) := by
    rw [b2b_v139, e_x2, k4 main_arg10 (by decide), a0_keep _ main_arg10 (by decide), k4 main_arg11 (by decide),
      a0_keep _ main_arg11 (by decide), hgm, hbem]
  have e_lin3 : B2c (B2b (B2a (B1c (B1b (B1a (A0 V0)))))) (dr main_v140) = lin (rRelu (rNorm (rPre (rRelu (rNorm (rPre x w1 b1 (degInv (dstOf ei)) (srcOf ei) (dstOf ei)) g1 be1)) wm bm (degInv (dstOf ei)) (srcOf ei) (dstOf ei)) gm bem)) w2 := by
    rw [b2c_v140, e_h2, k5 main_arg12 (by decide), a0_keep _ main_arg12 (by decide), hw2]
  have e_146 : B2c (B2b (B2a (B1c (B1b (B1a (A0 V0)))))) (dr main_v146) = colIdx (normIdx (srcOf ei)) := by
    rw [b2c_v146, k5 main_v1 (by decide), e_src]
  have e_x3 : B3a (B2c (B2b (B2a (B1c (B1b (B1a (A0 V0))))))) (dr main_v181) = rPre (rRelu (rNorm (rPre (rRelu (rNorm (rPre x w1 b1 (degInv (dstOf ei)) (srcOf ei) (dstOf ei)) g1 be1)) wm bm (degInv (dstOf ei)) (srcOf ei) (dstOf ei)) gm bem)) w2 b2 (degInv (dstOf ei)) (srcOf ei) (dstOf ei) := by
    rw [b3a_v181, e_lin3, e_146, k6 main_v15 (by decide), k6 main_v3 (by decide), k6 main_v1 (by decide), e_dinv, e_dst,
      e_src, k6 main_arg13 (by decide), a0_keep _ main_arg13 (by decide), hb2]
    rfl
  rw [tail_eq _ _ e_x3, k7 main_arg14 (by decide), a0_keep _ main_arg14 (by decide), k7 main_arg15 (by decide),
    a0_keep _ main_arg15 (by decide), k7 main_arg3 (by decide), a0_keep _ main_arg3 (by decide), hg2, hbe2, hbatch]
  rfl

theorem result_eq (V0 : Valuation τ sig (Elt Ideal)) :
    StableHlo.after (RefRun.ops (F := Ideal)) V0 (Proc.devRef .tc main_v216)
      = rFinal (V0 (Proc.devRef .tc main_arg0)) (V0 (Proc.devRef .tc main_arg1)) (V0 (Proc.devRef .tc main_arg3))
          (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9))
          (V0 (Proc.devRef .tc main_arg10)) (V0 (Proc.devRef .tc main_arg11)) (V0 (Proc.devRef .tc main_arg12))
          (V0 (Proc.devRef .tc main_arg13)) (V0 (Proc.devRef .tc main_arg14)) (V0 (Proc.devRef .tc main_arg15)) :=
  result_of V0 _ rfl _ rfl _ rfl _ rfl _ _ _ rfl rfl rfl _ rfl _ _ _ rfl rfl rfl _ rfl _ _ _ rfl rfl rfl

end Cert.ReferenceIdeal.RChain
end
-- ==== Proof.LibMatRead.lean ====
/-
  A matrix product into a zero accumulator, and a column, a row or a vector laid over a matrix, read at an entry on
  the extended reals.
-/
import Idealize.ShloMosaic.Lib.StackMember
import Idealize.ShloMosaic.Lib.ValueLayout

noncomputable section

open scoped BigOperators

namespace Cert.MatRead

open Idealize.ShloMosaic Idealize.ShloMosaic.ValueIdx

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- Both factors contracted along axis 0. -/
abbrev colDot (p m n : Nat) (wf : DotDims.WF ⟨2, ![p, m]⟩ ⟨2, ![p, n]⟩ ⟨2, ![m, n]⟩ [0] [0] [1] [1] [] []) :
    DotDims ⟨2, ![p, m]⟩ ⟨2, ![p, n]⟩ ⟨2, ![m, n]⟩ :=
  ⟨[0], [0], [1], [1], [], [], wf⟩

/-- Entry (a, b) of the product of columns by columns is the sum over c of A(c, a) · B(c, b). -/
theorem matmul_colDot_apply {p m n : Nat} {φ₁ φ₂ : FTy}
    (wf : DotDims.WF ⟨2, ![p, m]⟩ ⟨2, ![p, n]⟩ ⟨2, ![m, n]⟩ [0] [0] [1] [1] [] []) (prec : Option ContractPrecision)
    (A : FVec Ideal ⟨2, ![p, m]⟩ φ₁) (B : FVec Ideal ⟨2, ![p, n]⟩ φ₂) (a : Fin m) (b : Fin n) :
    matmul (colDot p m n wf) prec A B (constant ⟨2, ![m, n]⟩ .f32 0x00000000#32) (ix2 a b)
      = ∑ c : Fin p, A (ix2 c a) * B (ix2 c b) := by
  show FloatOps.matmul (colDot p m n wf) prec A B (constant ⟨2, ![m, n]⟩ .f32 0x00000000#32) (ix2 a b) = _
  rw [Ideal.matmul_constant_zero_apply, ← Equiv.sum_comp (contrEquiv1 (colDot p m n wf) p rfl rfl).symm]
  refine Finset.sum_congr rfl fun c _ => ?_
  have c2 := contrEquiv1_symm_val (colDot p m n wf) p rfl rfl c
  have l2 : (colDot p m n wf).lhsIdx (ix2 a b) ((contrEquiv1 _ p rfl rfl).symm c) = ix2 c a := by
    funext ax; apply Fin.ext
    match ax with
    | ⟨0, _⟩ => simp [DotDims.lhsIdx]; exact c2
    | ⟨1, _⟩ => simp [DotDims.lhsIdx]; rfl
  have r2 : (colDot p m n wf).rhsIdx (ix2 a b) ((contrEquiv1 _ p rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- What a broadcast asks of a coordinate that is kept: it is 0 on an axis of extent 1. -/
theorem keep {m : Nat} (r : Fin m) : r.val = if m = 1 then 0 else r.val := by
  have := r.isLt
  split <;> omega

variable {α : Type} {m n : Nat}

theorem broadcastInDim_oneCol_apply (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) :=
  broadcastInDim_apply ![0, 1] hbc y (ix2 r t) (ix2 r (0 : Fin 1)) fun a => by
    match a with
    | ⟨0, _⟩ => exact keep r
    | ⟨1, _⟩ => rfl

theorem broadcastTo_oneCol_apply (hb : (⟨2, ![m, 1]⟩ : Shape).Broadcasts ⟨2, ![m, n]⟩)
    (y : (⟨2, ![m, 1]⟩ : Shape).Idx → α) (r : Fin m) (t : Fin n) :
    broadcastTo ⟨2, ![m, n]⟩ y hb (ix2 r t) = y (ix2 r (0 : Fin 1)) :=
  broadcastTo_apply y hb (ix2 r t) (ix2 r (0 : Fin 1)) fun a => by
    match a with
    | ⟨0, _⟩ => exact keep r
    | ⟨1, _⟩ => rfl

theorem broadcastTo_oneRow_apply (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) :=
  broadcastTo_1b_ab_apply y hb r t

theorem shapeCast_vec_col_apply (x : (⟨1, ![m]⟩ : Shape).Idx → α)
    (h : (⟨1, ![m]⟩ : Shape).ShapeCasts ⟨2, ![m, 1]⟩) (r : Fin m) (z : Fin 1) :
    shapeCast ⟨2, ![m, 1]⟩ x h (ix2 r z) = x (ix1 r) := by
  refine shapeCast_apply x h (ix2 r z) (ix1 r) ?_
  rw [Shape.rowMajor_val_two, Shape.rowMajor_val_one]
  show r.val = r.val * 1 + z.val
  omega

theorem broadcastInDim_vec_col_apply (hd : (⟨1, ![m]⟩ : Shape).BroadcastsInDim ⟨2, ![m, 1]⟩ ![0])
    (x : (⟨1, ![m]⟩ : Shape).Idx → α) (r : Fin m) (z : Fin 1) :
    broadcastInDim ⟨2, ![m, 1]⟩ ![0] hd x (ix2 r z) = x (ix1 r) :=
  broadcastInDim_apply ![0] hd x (ix2 r z) (ix1 r) fun a => by
    match a with
    | ⟨0, _⟩ => exact keep r

/-- The cast of a vector to a column and its broadcast along axis 0 to the column are one array. -/
theorem shapeCast_vec_col_eq_broadcastInDim (x : (⟨1, ![m]⟩ : Shape).Idx → α)
    (h : (⟨1, ![m]⟩ : Shape).ShapeCasts ⟨2, ![m, 1]⟩) (hd : (⟨1, ![m]⟩ : Shape).BroadcastsInDim ⟨2, ![m, 1]⟩ ![0]) :
    shapeCast ⟨2, ![m, 1]⟩ x h = broadcastInDim ⟨2, ![m, 1]⟩ ![0] hd x := by
  funext i
  obtain ⟨r, z, rfl⟩ : ∃ (r : Fin m) (z : Fin 1), i = ix2 r z := ⟨i 0, i 1, eq_ix2 i⟩
  rw [shapeCast_vec_col_apply, broadcastInDim_vec_col_apply]

theorem broadcastInDim_vec_row_apply (hd : (⟨1, ![n]⟩ : Shape).BroadcastsInDim ⟨2, ![1, n]⟩ ![1])
    (x : (⟨1, ![n]⟩ : Shape).Idx → α) (z : Fin 1) (t : Fin n) :
    broadcastInDim ⟨2, ![1, n]⟩ ![1] hd x (ix2 z t) = x (ix1 t) :=
  broadcastInDim_apply ![1] hd x (ix2 z t) (ix1 t) fun a => by
    match a with
    | ⟨0, _⟩ => exact keep t

end Cert.MatRead

end
-- ==== Proof.BlockCore.lean ====
/-
  Blocks of whole rows of an array, and the value of each per-block body on them: applied to rows of its array
  operands, a body gives the same rows of the whole-array function of Spec.lean.
-/
import proofs.«428539_j48352741818636_1_alg».proof.Proof.Gen.KernelIdeal.Skeleton
import proofs.«428539_j48352741818636_1_alg».proof.Proof.Spec
import proofs.«428539_j48352741818636_1_alg».proof.Proof.LibMatRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockCore

open Idealize.ShloMosaic Idealize.ShloMosaic.ValueIdx Cert.KernelIdeal Cert.KernelIdeal.Gen Cert.GCN

theorem hz : (![0, 0] : Fin 2 → Nat) = fun _ => 0 := funext fun a => by fin_cases a <;> rfl

section Rows

variable {N m n : Nat} {α : Type}

/-- The rows `ρ 0, ρ 1, …` of an array, as a block. -/
def rows (ρ : Fin m → Fin N) (A : (⟨2, ![N, n]⟩ : Shape).Idx → α) : (⟨2, ![m, n]⟩ : Shape).Idx → α :=
  fun j => A (ix2 (ρ (j 0)) (j 1))

/-- A block spanning every column: an element keeps its column, since offset plus width fits in the width. -/
theorem emb_rows (off : Fin 2 → Nat) (inb : ∀ a, off a + ![m, n] a ≤ ![N, n] a) (j : (⟨2, ![m, n]⟩ : Shape).Idx) :
    (Rect.unit (s := ⟨2, ![N, n]⟩) off ![m, n] inb).emb j = ix2 ((Rect.unit (s := ⟨2, ![N, n]⟩) off ![m, n] inb).emb j 0) (j 1) :=
  Shape.idx_ext₂ rfl (by have h : off 1 + n ≤ n := inb 1; show off 1 + 1 * (j 1).val = (j 1).val; omega)

/-- A block that is its whole array: an element sits at its own index. -/
theorem emb_full {s : Shape} (off : Fin s.rank → Nat) (inb : ∀ a, off a + s.size a ≤ s.size a) (j : s.Idx) :
    (Rect.unit off s.size inb).emb j = j :=
  funext fun a => Fin.ext (by have := inb a; show off a + 1 * (j a).val = (j a).val; omega)

/-- Row `r` of 50000 lies in the block of 2000 rows number `r / 2000`, at row `r % 2000`. -/
theorem rows_onto {T : Nat} (hT : T = 25) (ix : Fin T → Fin 2 → Nat) (h : ∀ t, ix t 0 = t.val) (i : (⟨2, ![50000, n]⟩ : Shape).Idx) :
    ∃ (t : Fin T) (y : (⟨2, ![2000, n]⟩ : Shape).Idx),
      ∀ inb, (Rect.unit (s := ⟨2, ![50000, n]⟩) (fun a => ix t a * ![2000, n] a) ![2000, n] inb).emb y = i := by
  subst hT
  have hi := idx2_lt0 i
  refine ⟨⟨(i 0).val / 2000, by omega⟩, ix2 ⟨(i 0).val % 2000, Nat.mod_lt _ (by omega)⟩ (i 1), fun inb => ?_⟩
  have h1 : ix _ 1 * n + n ≤ n := inb 1
  refine Shape.idx_ext₂ ?_ ?_
  · show ix _ 0 * 2000 + 1 * ((i 0).val % 2000) = (i 0).val
    rw [h]
    show (i 0).val / 2000 * 2000 + 1 * ((i 0).val % 2000) = (i 0).val
    omega
  · show ix _ 1 * n + 1 * (i 1).val = (i 1).val
    omega

end Rows

theorem mem_of_emb {sig : RefSig} {κ : Kind} {sp : Space} {S : Shape} {e : EltTy} {v : View sig κ sp S e} {i : v.ty.Idx} (y : S.Idx)
    (h : v.emb y = i) : i ∈ v.set := h ▸ v.emb_mem_set y

/-- `f` takes rows of the features, and the weights, to the same rows of their product. -/
def LinH (f : (S2000x128.Idx → EReal) → (S128x128.Idx → EReal) → S2000x128.Idx → EReal) : Prop :=
  ∀ (ρ : Fin 2000 → Fin 50000) (X : SN.Idx → EReal) (W : SW.Idx → EReal), f (rows ρ X) W = rows ρ (linH X W)

/-- `f` takes the same rows of the features and of the column, and the weights, to those rows of the scaled product. -/
def LinSelf (f : (S2000x128.Idx → EReal) → (S128x128.Idx → EReal) → (S2000x1.Idx → EReal) → S2000x128.Idx → EReal) : Prop :=
  ∀ (ρ : Fin 2000 → Fin 50000) (X : SN.Idx → EReal) (W : SW.Idx → EReal) (D : SC.Idx → EReal),
    f (rows ρ X) W (rows ρ D) = rows ρ (linSelf X W D)

/-- Entry (p, q) of the product is the sum over k of x(p, k) · w(k, q); a change of float format is the identity on the extended reals. -/
theorem mm_rows (ρ : Fin 2000 → Fin 50000) (X : SN.Idx → EReal) (W : SW.Idx → EReal) (x0 : S2000x128.Idx → EReal) (h : x0 = rows ρ X) :
    matmul (F := Ideal) dot_S2000x128_S128x128_S2000x128_1_0_0_1_n_n none (truncf .bf16 x0 bitsLt_bf16_f32) (truncf .bf16 W bitsLt_bf16_f32)
      (constant S2000x128 .f32 0x00000000#32) = rows ρ (linH X W) := by
  subst h
  funext j
  obtain ⟨p, q, rfl⟩ : ∃ (p : Fin 2000) (q : Fin 128), j = ix2 p q := ⟨j 0, j 1, eq_ix2 j⟩
  exact (Cert.MatRead.matmul_plain_apply none _ _ p q).trans rfl

/-- A column laid over a block reads, in every column, its entry of the row. -/
theorem self_rows (ρ : Fin 2000 → Fin 50000) (X : SN.Idx → EReal) (W : SW.Idx → EReal) (D : SC.Idx → EReal) (y : S2000x128.Idx → EReal)
    (h : y = rows ρ (linH X W)) :
    mulf (F := Ideal) (φ := .f32) y (broadcastTo S2000x128 (shapeCast S2000x1 (rows ρ D) shapeCasts_S2000x1_S2000x1) broadcasts_S2000x1_S2000x128)
      = rows ρ (linSelf X W D) := by
  subst h
  funext j
  obtain ⟨p, q, rfl⟩ : ∃ (p : Fin 2000) (q : Fin 128), j = ix2 p q := ⟨j 0, j 1, eq_ix2 j⟩
  rw [mulf_apply, shapeCast_self, Cert.MatRead.broadcastTo_oneCol_apply]
  rfl

theorem k0_pay2_lin : LinH (k0_pay2 (F := Ideal)) := fun ρ X W => mm_rows ρ X W _ rfl
theorem k3_pay2_lin : LinH (k3_pay2 (F := Ideal)) := fun ρ X W => mm_rows ρ X W _ (shapeCast_self _ _)
theorem k6_pay2_lin : LinH (k6_pay2 (F := Ideal)) := k3_pay2_lin
theorem k0_pay3_lin : LinSelf (k0_pay3 (F := Ideal)) := fun ρ X W D => self_rows ρ X W D _ (mm_rows ρ X W _ rfl)
theorem k3_pay3_lin : LinSelf (k3_pay3 (F := Ideal)) := fun ρ X W D => self_rows ρ X W D _ (mm_rows ρ X W _ (shapeCast_self _ _))
theorem k6_pay3_lin : LinSelf (k6_pay3 (F := Ideal)) := k3_pay3_lin

/-- `f` takes rows of the features and the four per-channel rows to the same rows of `G` of the arrays. -/
def Bn (G : (SN.Idx → EReal) → (SR.Idx → EReal) → (SR.Idx → EReal) → (SR.Idx → EReal) → (SR.Idx → EReal) → SN.Idx → EReal)
    (f : (S2000x128.Idx → EReal) → (S1x128.Idx → EReal) → (S1x128.Idx → EReal) → (S1x128.Idx → EReal) → (S1x128.Idx → EReal) → S2000x128.Idx → EReal) : Prop :=
  ∀ (ρ : Fin 2000 → Fin 50000) (X : SN.Idx → EReal) (mean inv g be : SR.Idx → EReal),
    f (rows ρ X) mean inv g be = rows ρ (G X mean inv g be)

/-- A per-channel row laid over the rows reads its entry of the channel at every row. -/
theorem k8_pay1_bn : Bn bnAffine (k8_pay1 (F := Ideal)) := fun ρ X mean inv g be => by
  funext j
  obtain ⟨r, d, rfl⟩ : ∃ (r : Fin 2000) (d : Fin 128), j = ix2 r d := ⟨j 0, j 1, eq_ix2 j⟩
  have hrow : ∀ y : S1x128.Idx → EReal,
      broadcastTo S2000x128 (shapeCast S1x128 y shapeCasts_S1x128_S1x128) broadcasts_S1x128_S2000x128 (ix2 r d) = y (ix2 (0 : Fin 1) d) :=
    fun y => by rw [shapeCast_self]; exact Cert.MatRead.broadcastTo_oneRow_apply _ y r d
  unfold k8_pay1
  rw [addf_apply, mulf_apply, mulf_apply, subf_apply, hrow, hrow, hrow, hrow, shapeCast_self]
  rfl

/-- The clip at zero on top of it: the zero word is the extended real 0. -/
theorem k2_pay1_bn : Bn bnRelu (k2_pay1 (F := Ideal)) := fun ρ X mean inv g be => by
  funext j
  unfold k2_pay1
  rw [maximumf_apply, broadcast_apply, Ideal.ofBits_def, Ideal.ofBits_zero_f32]
  exact congrArg (max · 0) (congrFun (k8_pay1_bn ρ X mean inv g be) j)

theorem k5_pay1_bn : Bn bnRelu (k5_pay1 (F := Ideal)) := k2_pay1_bn

end Cert.KernelIdeal.BlockCore

end
-- ==== Proof.RegLin0.lean ====
/-
  The linear step read off the first kernel of the program: after its 25 points the first output holds x · w and
  the second x · w with row n scaled by d(n).
-/
import proofs.«428539_j48352741818636_1_alg».proof.Proof.Gen.KernelIdeal.Frame
import proofs.«428539_j48352741818636_1_alg».proof.Proof.BlockCore

noncomputable section

namespace Cert.KernelIdeal.RegLin0

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg0.N, win0_3.index t 0 = t.val := (by decide +kernel : ∀ t : Fin grid0.N, _)

/-- The array row in which row `p` of a block at point `t` sits. -/
abbrev row (t : Fin cfg0.N) (p : Fin 2000) : Fin 50000 := (win0_3.rect t).emb (ix2 p 0) 0

section
variable (c : Dev nD) (t : Fin cfg0.N)

theorem blk_0 : iblk0 V c 0 t = rows (row t) (V c main_arg0) := funext fun j => congrArg (V c main_arg0) (emb_rows _ _ j)

theorem blk_1 : iblk0 V c 1 t = V c main_arg4 := funext fun j => congrArg (V c main_arg4) (emb_full _ _ j)

theorem blk_2 : iblk0 V c 2 t = rows (row t) (V c main_v32) := funext fun j => congrArg (V c main_v32) (emb_rows _ _ j)

end

theorem h_eq (c : Dev nD) :
    (dat0 (F := Ideal) V c).arrAt 3 cfg0.N = linH (V c main_arg0) (V c main_arg4) :=
  (dat0 (F := Ideal) V c).arrAt_eq_of_cover 3 _ (fun t _ => by
    refine (after0_3 V c t).trans ?_
    rw [out0_3, View.canon_unit_zero hz, View.ld_unit_zero hz, View.ld_unit_zero hz, blk_0, blk_1, k0_pay2_lin]
    generalize linH _ _ = G
    exact funext fun j => (congrArg G (emb_rows _ _ j)).symm)
    fun i => (rows_onto N_0 win0_3.index idx i).elim fun t ⟨y, h⟩ => ⟨t, flush0_3 t, mem_of_emb y (h _)⟩

theorem self_eq (c : Dev nD) :
    (dat0 (F := Ideal) V c).arrAt 4 cfg0.N = linSelf (V c main_arg0) (V c main_arg4) (V c main_v32) :=
  (dat0 (F := Ideal) V c).arrAt_eq_of_cover 4 _ (fun t _ => by
    refine (after0_4 V c t).trans ?_
    rw [out0_4, View.canon_unit_zero hz, View.ld_unit_zero hz, View.ld_unit_zero hz, View.ld_unit_zero hz, blk_0, blk_1, blk_2,
      k0_pay3_lin]
    generalize linSelf _ _ _ = G
    exact funext fun j => (congrArg G (emb_rows _ _ j)).symm)
    fun i => (rows_onto N_0 win0_3.index idx i).elim fun t ⟨y, h⟩ => ⟨t, flush0_4 t, mem_of_emb y (h _)⟩

end Cert.KernelIdeal.RegLin0

end
-- ==== Proof.RegLin3.lean ====
/-
  The linear step read off the fourth kernel of the program: after its 25 points the first output holds x · w and
  the second x · w with row n scaled by d(n).
-/
import proofs.«428539_j48352741818636_1_alg».proof.Proof.Gen.KernelIdeal.Frame
import proofs.«428539_j48352741818636_1_alg».proof.Proof.BlockCore

noncomputable section

namespace Cert.KernelIdeal.RegLin3

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg3.N, win3_3.index t 0 = t.val := (by decide +kernel : ∀ t : Fin grid3.N, _)

/-- The array row in which row `p` of a block at point `t` sits. -/
abbrev row (t : Fin cfg3.N) (p : Fin 2000) : Fin 50000 := (win3_3.rect t).emb (ix2 p 0) 0

section
variable (c : Dev nD) (t : Fin cfg3.N)

theorem blk_0 : iblk3 V c 0 t = rows (row t) (V c main_v61) := funext fun j => congrArg (V c main_v61) (emb_rows _ _ j)

theorem blk_1 : iblk3 V c 1 t = V c main_arg8 := funext fun j => congrArg (V c main_arg8) (emb_full _ _ j)

theorem blk_2 : iblk3 V c 2 t = rows (row t) (V c main_v32) := funext fun j => congrArg (V c main_v32) (emb_rows _ _ j)

end

theorem h_eq (c : Dev nD) :
    (dat3 (F := Ideal) V c).arrAt 3 cfg3.N = linH (V c main_v61) (V c main_arg8) :=
  (dat3 (F := Ideal) V c).arrAt_eq_of_cover 3 _ (fun t _ => by
    refine (after3_3 V c t).trans ?_
    rw [out3_3, View.canon_unit_zero hz, View.ld_unit_zero hz, View.ld_unit_zero hz, blk_0, blk_1, k3_pay2_lin]
    generalize linH _ _ = G
    exact funext fun j => (congrArg G (emb_rows _ _ j)).symm)
    fun i => (rows_onto N_3 win3_3.index idx i).elim fun t ⟨y, h⟩ => ⟨t, flush3_3 t, mem_of_emb y (h _)⟩

theorem self_eq (c : Dev nD) :
    (dat3 (F := Ideal) V c).arrAt 4 cfg3.N = linSelf (V c main_v61) (V c main_arg8) (V c main_v32) :=
  (dat3 (F := Ideal) V c).arrAt_eq_of_cover 4 _ (fun t _ => by
    refine (after3_4 V c t).trans ?_
    rw [out3_4, View.canon_unit_zero hz, View.ld_unit_zero hz, View.ld_unit_zero hz, View.ld_unit_zero hz, blk_0, blk_1, blk_2,
      k3_pay3_lin]
    generalize linSelf _ _ _ = G
    exact funext fun j => (congrArg G (emb_rows _ _ j)).symm)
    fun i => (rows_onto N_3 win3_3.index idx i).elim fun t ⟨y, h⟩ => ⟨t, flush3_4 t, mem_of_emb y (h _)⟩

end Cert.KernelIdeal.RegLin3

end
-- ==== Proof.RegLin6.lean ====
/-
  The linear step read off the seventh kernel of the program: after its 25 points the first output holds x · w and
  the second x · w with row n scaled by d(n).
-/
import proofs.«428539_j48352741818636_1_alg».proof.Proof.Gen.KernelIdeal.Frame
import proofs.«428539_j48352741818636_1_alg».proof.Proof.BlockCore

noncomputable section

namespace Cert.KernelIdeal.RegLin6

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg6.N, win6_3.index t 0 = t.val := (by decide +kernel : ∀ t : Fin grid6.N, _)

/-- The array row in which row `p` of a block at point `t` sits. -/
abbrev row (t : Fin cfg6.N) (p : Fin 2000) : Fin 50000 := (win6_3.rect t).emb (ix2 p 0) 0

section
variable (c : Dev nD) (t : Fin cfg6.N)

theorem blk_0 : iblk6 V c 0 t = rows (row t) (V c main_v90) := funext fun j => congrArg (V c main_v90) (emb_rows _ _ j)

theorem blk_1 : iblk6 V c 1 t = V c main_arg12 := funext fun j => congrArg (V c main_arg12) (emb_full _ _ j)

theorem blk_2 : iblk6 V c 2 t = rows (row t) (V c main_v32) := funext fun j => congrArg (V c main_v32) (emb_rows _ _ j)

end

theorem h_eq (c : Dev nD) :
    (dat6 (F := Ideal) V c).arrAt 3 cfg6.N = linH (V c main_v90) (V c main_arg12) :=
  (dat6 (F := Ideal) V c).arrAt_eq_of_cover 3 _ (fun t _ => by
    refine (after6_3 V c t).trans ?_
    rw [out6_3, View.canon_unit_zero hz, View.ld_unit_zero hz, View.ld_unit_zero hz, blk_0, blk_1, k6_pay2_lin]
    generalize linH _ _ = G
    exact funext fun j => (congrArg G (emb_rows _ _ j)).symm)
    fun i => (rows_onto N_6 win6_3.index idx i).elim fun t ⟨y, h⟩ => ⟨t, flush6_3 t, mem_of_emb y (h _)⟩

theorem self_eq (c : Dev nD) :
    (dat6 (F := Ideal) V c).arrAt 4 cfg6.N = linSelf (V c main_v90) (V c main_arg12) (V c main_v32) :=
  (dat6 (F := Ideal) V c).arrAt_eq_of_cover 4 _ (fun t _ => by
    refine (after6_4 V c t).trans ?_
    rw [out6_4, View.canon_unit_zero hz, View.ld_unit_zero hz, View.ld_unit_zero hz, View.ld_unit_zero hz, blk_0, blk_1, blk_2,
      k6_pay3_lin]
    generalize linSelf _ _ _ = G
    exact funext fun j => (congrArg G (emb_rows _ _ j)).symm)
    fun i => (rows_onto N_6 win6_3.index idx i).elim fun t ⟨y, h⟩ => ⟨t, flush6_4 t, mem_of_emb y (h _)⟩

end Cert.KernelIdeal.RegLin6

end
-- ==== Proof.StatsCore.lean ====
/-
  Column sums of a 50000-row array taken 2000 rows at a time, on the extended reals: the block of sums, a row plus a
  block's column sums, and the two rows that 25 blocks in sequence leave.
-/
import proofs.«428539_j48352741818636_1_alg».proof.Proof.Spec
import Idealize.ShloMosaic.Lib.Pipeline.Value
import Idealize.ShloMosaic.Lib.ValueLayout
import Idealize.ShloMosaic.PureOps.Ideal.Laws

noncomputable section

namespace Cert.GCN.Stats

open Idealize.ShloMosaic Idealize.ShloMosaic.ValueIdx Cert.GCN
open scoped BigOperators

abbrev SB : Shape := ⟨2, ![2000, 128]⟩
abbrev SVec : Shape := ⟨1, ![128]⟩

theorem cBB : SB.ShapeCasts SB := by decide
theorem cRR : SR.ShapeCasts SR := by decide
theorem cVR : SVec.ShapeCasts SR := by decide
theorem bRB : SR.Broadcasts SB := by decide
theorem rBV : SB.Reduces [0] SVec := by decide

/-- Two blocks added entry by entry, then one row added to every row. -/
def blkSum (x0 x1 : FVec Ideal SB .f32) (x2 : FVec Ideal SR .f32) : FVec Ideal SB .f32 :=
  addf (addf (shapeCast SB x0 cBB) (shapeCast SB x1 cBB)) (broadcastTo SB (shapeCast SR x2 cRR) bRB)

/-- A row plus the column sums of a block. -/
def rowAdd (s : FVec Ideal SB .f32) (acc : FVec Ideal SR .f32) : FVec Ideal SR .f32 :=
  addf (shapeCast SR acc cRR) (shapeCast SR (multiReduction .add [0] SVec s 0x00000000#32 rBV (.inl rfl) rfl) cVR)

def zeroRow : FVec Ideal SR .f32 := broadcast SR (Scalar.ofBits .f32 0x00000000#32)

theorem blkSum_apply (x0 x1 : FVec Ideal SB .f32) (x2 : FVec Ideal SR .f32) (r : Fin 2000) (d : Fin 128) :
    blkSum x0 x1 x2 (ix2 r d) = (x0 (ix2 r d) + x1 (ix2 r d)) + x2 (ix2 0 d) := by
  show (shapeCast SB x0 cBB (ix2 r d) + shapeCast SB x1 cBB (ix2 r d)) + broadcastTo SB (shapeCast SR x2 cRR) bRB (ix2 r d) = _
  rw [shapeCast_self, shapeCast_self, shapeCast_self, broadcastTo_1b_ab_apply x2 bRB r d]

theorem rowAdd_apply (s : FVec Ideal SB .f32) (acc : FVec Ideal SR .f32) (d : Fin 128) :
    rowAdd s acc (ix2 0 d) = acc (ix2 0 d) + ∑ r : Fin 2000, s (ix2 r d) := by
  show shapeCast SR acc cRR (ix2 (0 : Fin 1) d) + shapeCast SR (multiReduction (F := Ideal) .add [0] SVec s 0x00000000#32 rBV (.inl rfl) rfl) cVR (ix2 (0 : Fin 1) d) = _
  rw [shapeCast_self, shapeCast_a_1a_apply _ cVR 0 d, Ideal.multiReduction_add_single s 0x00000000#32 rBV (.inl rfl) rfl (ix1 d)]
  exact congrArg _ (Finset.sum_congr rfl fun r _ => congrArg s (Shape.idx_ext₂ rfl rfl))

theorem hz : (![0, 0] : Fin 2 → Nat) = fun _ => 0 := funext fun a => by fin_cases a <;> rfl

/-- An element of a block of whole rows keeps its column, and sits at the row its offset gives. -/
theorem emb_row {N m n : ℕ} (off : Fin 2 → ℕ) (inb : ∀ a, off a + ![m, n] a ≤ ![N, n] a) (j : (⟨2, ![m, n]⟩ : Shape).Idx)
    (r : Fin N) (h : off 0 + (j 0).val = r.val) : (Rect.unit (s := ⟨2, ![N, n]⟩) off ![m, n] inb).emb j = ix2 r (j 1) :=
  Shape.idx_ext₂ (by show off 0 + 1 * (j 0).val = r.val; omega)
    (by have h : off 1 + n ≤ n := inb 1; show off 1 + 1 * (j 1).val = (j 1).val; omega)

/-- Column d of a 50000-row array at row m, zero past the last row. -/
def colAt (v : SN.Idx → EReal) (d : Fin 128) (m : ℕ) : EReal := if h : m < 50000 then v (ix2 ⟨m, h⟩ d) else 0

section Run

variable {N : ℕ} (hN : N ≤ 25) (v : SN.Idx → EReal)
include hN

/-- A row reset to zero that gains block n's column sums at step n holds, after step n, the sums over the rows below 2000 (n + 1). -/
theorem run_colSum (f : (n : ℕ) → n < N → FVec Ideal SR .f32) (s : (n : ℕ) → n < N → FVec Ideal SB .f32)
    (hs : ∀ n h (j : SB.Idx) (m : Fin 50000), m.val = 2000 * n + (j 0).val → s n h j = v (ix2 m (j 1)))
    (hA : ∀ n h, n % 25 = 0 → f n h = rowAdd (s n h) zeroRow)
    (hB : ∀ n h, ¬n % 25 = 0 → f n h = rowAdd (s n h) (f (n - 1) (Nat.lt_of_le_of_lt (Nat.sub_le _ _) h)))
    (h : 24 < N) : f 24 h = colSum v := by
  funext j
  obtain ⟨z, d, rfl⟩ : ∃ (z : Fin 1) (d : Fin 128), j = ix2 z d := ⟨j 0, j 1, eq_ix2 j⟩
  obtain rfl : z = 0 := Subsingleton.elim _ _
  have blk : ∀ n (h : n < N), ∑ r : Fin 2000, s n h (ix2 r d) = ∑ p ∈ Finset.range 2000, colAt v d (2000 * n + p) := fun n h => by
    rw [← Fin.sum_univ_eq_sum_range (fun p => colAt v d (2000 * n + p)) 2000]
    refine Finset.sum_congr rfl fun r _ => ?_
    have hlt : 2000 * n + r.val < 50000 := by have := r.isLt; omega
    rw [colAt, dif_pos hlt]
    exact hs n h (ix2 r d) ⟨_, hlt⟩ rfl
  have run : ∀ n h, f n h (ix2 0 d) = ∑ m ∈ Finset.range (2000 * (n + 1)), colAt v d m := fun n => by
    induction n with
    | zero =>
      intro h
      rw [hA 0 h rfl, rowAdd_apply, blk, Nat.mul_succ, Finset.sum_range_add, Nat.mul_zero, Finset.sum_range_zero]
      exact congrArg (· + _) (show zeroRow (ix2 0 d) = 0 from Ideal.ofBits_zero_f32)
    | succ n ih =>
      intro h
      rw [hB (n + 1) h (by omega), rowAdd_apply, blk, Nat.mul_succ 2000 (n + 1), Finset.sum_range_add]
      exact congrArg (· + _) (ih _)
  rw [run 24 h, show 2000 * (24 + 1) = 50000 from rfl, ← Fin.sum_univ_eq_sum_range (fun m => colAt v d m) 50000]
  exact Finset.sum_congr rfl fun m _ => dif_pos m.isLt

/-- The same of two rows at once, the second fed the squares: the column sums and the column sums of squares of `v`. -/
theorem run_stats (f : (n : ℕ) → n < N → FVec Ideal SR .f32 × FVec Ideal SR .f32) (b : (n : ℕ) → n < N → FVec Ideal SB .f32)
    (hb : ∀ n h (j : SB.Idx) (m : Fin 50000), m.val = 2000 * n + (j 0).val → b n h j = v (ix2 m (j 1)))
    (hA : ∀ n h, n % 25 = 0 → f n h = (rowAdd (b n h) zeroRow, rowAdd (mulf (b n h) (b n h)) zeroRow))
    (hB : ∀ n h, ¬n % 25 = 0 → f n h = (rowAdd (b n h) (f (n - 1) (Nat.lt_of_le_of_lt (Nat.sub_le _ _) h)).1,
      rowAdd (mulf (b n h) (b n h)) (f (n - 1) (Nat.lt_of_le_of_lt (Nat.sub_le _ _) h)).2))
    (n : ℕ) (h : n < N) (h24 : n = 24) : (f n h).1 = colSum v ∧ (f n h).2 = colSumSq v := by
  subst h24
  exact ⟨run_colSum hN v (fun n h => (f n h).1) b hb (fun n h h0 => congrArg Prod.fst (hA n h h0))
      (fun n h h0 => congrArg Prod.fst (hB n h h0)) h,
    run_colSum hN (fun i => v i * v i) (fun n h => (f n h).2) (fun n h => mulf (b n h) (b n h))
      (fun n h j m e => congrArg (fun z : EReal => z * z) (hb n h j m e)) (fun n h h0 => congrArg Prod.snd (hA n h h0))
      (fun n h h0 => congrArg Prod.snd (hB n h h0)) h⟩

end Run

end Cert.GCN.Stats

end
-- ==== Proof.RegStats1.lean ====
/-
  What the region leaves in its three outputs, on the extended reals: the array of sums, and that array's column
  sums and column sums of squares.
-/
import proofs.«428539_j48352741818636_1_alg».proof.Proof.Gen.KernelIdeal.Frame
import proofs.«428539_j48352741818636_1_alg».proof.Proof.StatsCore
import proofs.«428539_j48352741818636_1_alg».proof.Proof.BlockCore
import Idealize.ShloMosaic.Lib.Tactic

noncomputable section

namespace Cert.KernelIdeal.RegStats1

open Idealize.ShloMosaic Idealize.ShloMosaic.TcCoe Idealize.ShloMosaic.ValueIdx Idealize.SL.Sem Cert.KernelIdeal Cert.KernelIdeal.Gen Cert.GCN Cert.GCN.Stats
open scoped BigOperators

section Value

variable (V : (c : Dev nD) → (b : Ref sig .tc) → Buf (Elt Ideal) ((c : Thread nD τ).loc b)) (c : Dev nD)

abbrev X : SN.Idx → EReal := xmid (V c main_v47) (V c main_v33_1) (V c main_v48)

/-- The block of sums the region forms at point t. -/
abbrev blkAt (t : Fin cfg1.N) : FVec Ideal SB .f32 := blkSum (iblk1 V c 0 t) (iblk1 V c 1 t) (iblk1 V c 2 t)

theorem idx_facts1 : ∀ t : Fin cfg1.N, win1_0.index t 0 = t.val ∧ win1_1.index t 0 = t.val ∧ win1_3.index t 0 = t.val :=
  (by decide +kernel : ∀ t : Fin grid1.N, _)

/-- Row r of the block at point t is row 2000 t + r of the array of sums: each input block sits there in its array. -/
theorem blkAt_apply (t : Fin cfg1.N) (j : SB.Idx) (m : Fin 50000) (e : m.val = 2000 * t.val + (j 0).val) :
    blkAt V c t j = X V c (ix2 m (j 1)) := by
  obtain ⟨p, q, -⟩ := idx_facts1 t
  have ea : ((cfg1.win 0).blk t).view.emb (ix2 (j 0) (j 1)) = ix2 m (j 1) :=
    emb_row _ _ (ix2 (j 0) (j 1)) m (by show win1_0.index t 0 * 2000 + (j 0).val = _; omega)
  have es : ((cfg1.win 1).blk t).view.emb (ix2 (j 0) (j 1)) = ix2 m (j 1) :=
    emb_row _ _ (ix2 (j 0) (j 1)) m (by show win1_1.index t 0 * 2000 + (j 0).val = _; omega)
  have eb : ((cfg1.win 2).blk t).view.emb (ix2 (0 : Fin 1) (j 1)) = ix2 0 (j 1) := BlockCore.emb_full _ _ (ix2 (0 : Fin 1) (j 1))
  rw [eq_ix2 j]
  refine (blkSum_apply _ _ _ (j 0) (j 1)).trans ?_
  exact congrArg₂ (· + ·) (congrArg₂ (· + ·) (congrArg (V c main_v47) ea) (congrArg (V c main_v33_1) es)) (congrArg (V c main_v48) eb)

theorem outs_A (t : Fin cfg1.N) (h0 : t.val % 25 = 0) :
    outsAt1 V c t.val t.isLt
      = (blkAt V c t, rowAdd (blkAt V c t) zeroRow, rowAdd (mulf (blkAt V c t) (blkAt V c t)) zeroRow) := by
  rw [outsAt1_A V c t h0]
  unfold out1_A_3 out1_A_4 out1_A_5
  rw [View.read_writes_eq_canon _ _ _ (cover1_A_3 _ _ _ _ _ _ _ _ _ _ _ _ _ _ _ _ _ _), View.read_writes_eq_canon _ _ _ (cover1_A_4 _ _ _ _ _ _ _ _ _ _ _ _ _ _ _ _ _ _),
    View.read_writes_eq_canon _ _ _ (cover1_A_5 _ _ _ _ _ _ _ _ _ _ _ _ _ _ _ _ _ _)]
  unfold kernelRun1_A
  dsimp only
  sl_unfold_words
  simp only [View.canon_cons_unit_zero (S := S2000x128) hz, View.canon_cons_unit_zero (S := S1x128) hz, View.readCov_unit_zero (S := S1x128) _ hz,
    View.readAt_eq_ld, (hs1_0 t).read_unread, (hs1_1 t).read_unread, (hs1_2 t).read_unread, View.ld_unit_zero (S := S2000x128) hz,
    View.ld_unit_zero (S := S1x128) hz]
  rfl

theorem outs_B (t : Fin cfg1.N) (h0 : ¬t.val % 25 = 0) :
    outsAt1 V c t.val t.isLt
      = (blkAt V c t, rowAdd (blkAt V c t) (outsAt1 V c (t.val - 1) (Nat.lt_of_le_of_lt (Nat.sub_le _ _) t.isLt)).2.1,
          rowAdd (mulf (blkAt V c t) (blkAt V c t)) (outsAt1 V c (t.val - 1) (Nat.lt_of_le_of_lt (Nat.sub_le _ _) t.isLt)).2.2) := by
  rw [outsAt1_B V c t h0]
  unfold out1_B_3 out1_B_4 out1_B_5
  rw [View.read_writes_eq_canon _ _ _ (cover1_B_3 _ _ _ _ _ _ _ _ _ _ _ _ _ _ _ _ _ _ _ _), View.read_writes_eq_canon _ _ _ (cover1_B_4 _ _ _ _ _ _ _ _ _ _ _ _ _ _ _ _ _ _ _ _),
    View.read_writes_eq_canon _ _ _ (cover1_B_5 _ _ _ _ _ _ _ _ _ _ _ _ _ _ _ _ _ _ _ _)]
  unfold kernelRun1_B
  dsimp only
  sl_unfold_words
  simp only [View.canon_cons_unit_zero (S := S2000x128) hz, View.canon_cons_unit_zero (S := S1x128) hz, View.readCov_unit_zero (S := S1x128) _ hz,
    View.readAt_eq_ld, (hs1_0 t).read_unread, (hs1_1 t).read_unread, (hs1_2 t).read_unread, (hs1_4 t).read_unread, (hs1_5 t).read_unread, View.ld_unit_zero (S := S2000x128) hz,
    View.ld_unit_zero (S := S1x128) hz]
  rfl

theorem xmid_eq :
    (dat1 (F := Ideal) V c).arrAt 3 cfg1.N = xmid (V c main_v47) (V c main_v33_1) (V c main_v48) := by
  refine (dat1 (F := Ideal) V c).arrAt_eq_of_cover 3 (X V c) (fun t _ => ?_) fun i => ?_
  · funext j
    show (outsAt1 V c t.val t.isLt).1 j = X V c (((cfg1.win 3).blk t).view.emb j)
    have hb : (outsAt1 V c t.val t.isLt).1 = blkAt V c t := by
      by_cases h0 : t.val % 25 = 0
      · exact congrArg Prod.fst (outs_A V c t h0)
      · exact congrArg Prod.fst (outs_B V c t h0)
    rw [hb]
    exact (blkAt_apply V c t j _ (by show win1_3.index t 0 * 2000 + 1 * (j 0).val = _; rw [(idx_facts1 t).2.2]; omega)).trans
      (congrArg (X V c) (BlockCore.emb_rows _ _ j).symm)
  · obtain ⟨t, y, h⟩ := BlockCore.rows_onto N_1 win1_3.index (fun t => (idx_facts1 t).2.2) i
    exact ⟨t, flush1_3 t, BlockCore.mem_of_emb y (h _)⟩

/-- After the last point the two rows hold the column sums and the column sums of squares over all 50000 rows. -/
theorem last (t : Fin cfg1.N) (h24 : t.val = 24) :
    (outsAt1 V c t.val t.isLt).2.1 = colSum (X V c) ∧ (outsAt1 V c t.val t.isLt).2.2 = colSumSq (X V c) :=
  run_stats N_1.le (X V c) (fun n h => (outsAt1 V c n h).2) (fun n h => blkAt V c ⟨n, h⟩) (fun n h => blkAt_apply V c ⟨n, h⟩)
    (fun n h h0 => congrArg Prod.snd (outs_A V c ⟨n, h⟩ h0)) (fun n h h0 => congrArg Prod.snd (outs_B V c ⟨n, h⟩ h0)) t.val t.isLt h24

theorem sum_eq : (dat1 (F := Ideal) V c).arrAt 4 cfg1.N = colSum (xmid (V c main_v47) (V c main_v33_1) (V c main_v48)) := by
  have e : ∀ (t : Fin cfg1.N) (j : SR.Idx), ((cfg1.win 4).blk t).view.emb j = j := fun t j => BlockCore.emb_full _ _ j
  refine (dat1 (F := Ideal) V c).arrAt_eq_of_cover 4 _ (fun t hf => ?_) fun i => ?_
  · have hl := (last V c t (by have := (flush1_4 t).mp hf; have := t.isLt.trans_eq N_1; omega)).1
    generalize colSum (X V c) = G at hl ⊢
    funext j
    show (outsAt1 V c t.val t.isLt).2.1 j = G (((cfg1.win 4).blk t).view.emb j)
    rw [e, hl]
  · obtain ⟨t, ht⟩ : ∃ t : Fin cfg1.N, t.val = 24 := ⟨⟨24, Nat.lt_of_lt_of_eq (by decide) N_1.symm⟩, rfl⟩
    exact ⟨t, (flush1_4 t).mpr (by omega), BlockCore.mem_of_emb i (e t i)⟩

theorem sumsq_eq : (dat1 (F := Ideal) V c).arrAt 5 cfg1.N = colSumSq (xmid (V c main_v47) (V c main_v33_1) (V c main_v48)) := by
  have e : ∀ (t : Fin cfg1.N) (j : SR.Idx), ((cfg1.win 5).blk t).view.emb j = j := fun t j => BlockCore.emb_full _ _ j
  refine (dat1 (F := Ideal) V c).arrAt_eq_of_cover 5 _ (fun t hf => ?_) fun i => ?_
  · have hl := (last V c t (by have := (flush1_5 t).mp hf; have := t.isLt.trans_eq N_1; omega)).2
    generalize colSumSq (X V c) = G at hl ⊢
    funext j
    show (outsAt1 V c t.val t.isLt).2.2 j = G (((cfg1.win 5).blk t).view.emb j)
    rw [e, hl]
  · obtain ⟨t, ht⟩ : ∃ t : Fin cfg1.N, t.val = 24 := ⟨⟨24, Nat.lt_of_lt_of_eq (by decide) N_1.symm⟩, rfl⟩
    exact ⟨t, (flush1_5 t).mpr (by omega), BlockCore.mem_of_emb i (e t i)⟩

end Value

end Cert.KernelIdeal.RegStats1

end
-- ==== Proof.RegStats4.lean ====
/-
  What the region leaves in its three outputs, on the extended reals: the array of sums, and that array's column
  sums and column sums of squares.
-/
import proofs.«428539_j48352741818636_1_alg».proof.Proof.Gen.KernelIdeal.Frame
import proofs.«428539_j48352741818636_1_alg».proof.Proof.StatsCore
import proofs.«428539_j48352741818636_1_alg».proof.Proof.BlockCore
import Idealize.ShloMosaic.Lib.Tactic

noncomputable section

namespace Cert.KernelIdeal.RegStats4

open Idealize.ShloMosaic Idealize.ShloMosaic.TcCoe Idealize.ShloMosaic.ValueIdx Idealize.SL.Sem Cert.KernelIdeal Cert.KernelIdeal.Gen Cert.GCN Cert.GCN.Stats
open scoped BigOperators

section Value

variable (V : (c : Dev nD) → (b : Ref sig .tc) → Buf (Elt Ideal) ((c : Thread nD τ).loc b)) (c : Dev nD)

abbrev X : SN.Idx → EReal := xmid (V c main_v76) (V c main_v62_1) (V c main_v77)

/-- The block of sums the region forms at point t. -/
abbrev blkAt (t : Fin cfg4.N) : FVec Ideal SB .f32 := blkSum (iblk4 V c 0 t) (iblk4 V c 1 t) (iblk4 V c 2 t)

theorem idx_facts4 : ∀ t : Fin cfg4.N, win4_0.index t 0 = t.val ∧ win4_1.index t 0 = t.val ∧ win4_3.index t 0 = t.val :=
  (by decide +kernel : ∀ t : Fin grid4.N, _)

/-- Row r of the block at point t is row 2000 t + r of the array of sums: each input block sits there in its array. -/
theorem blkAt_apply (t : Fin cfg4.N) (j : SB.Idx) (m : Fin 50000) (e : m.val = 2000 * t.val + (j 0).val) :
    blkAt V c t j = X V c (ix2 m (j 1)) := by
  obtain ⟨p, q, -⟩ := idx_facts4 t
  have ea : ((cfg4.win 0).blk t).view.emb (ix2 (j 0) (j 1)) = ix2 m (j 1) :=
    emb_row _ _ (ix2 (j 0) (j 1)) m (by show win4_0.index t 0 * 2000 + (j 0).val = _; omega)
  have es : ((cfg4.win 1).blk t).view.emb (ix2 (j 0) (j 1)) = ix2 m (j 1) :=
    emb_row _ _ (ix2 (j 0) (j 1)) m (by show win4_1.index t 0 * 2000 + (j 0).val = _; omega)
  have eb : ((cfg4.win 2).blk t).view.emb (ix2 (0 : Fin 1) (j 1)) = ix2 0 (j 1) := BlockCore.emb_full _ _ (ix2 (0 : Fin 1) (j 1))
  rw [eq_ix2 j]
  refine (blkSum_apply _ _ _ (j 0) (j 1)).trans ?_
  exact congrArg₂ (· + ·) (congrArg₂ (· + ·) (congrArg (V c main_v76) ea) (congrArg (V c main_v62_1) es)) (congrArg (V c main_v77) eb)

theorem outs_A (t : Fin cfg4.N) (h0 : t.val % 25 = 0) :
    outsAt4 V c t.val t.isLt
      = (blkAt V c t, rowAdd (blkAt V c t) zeroRow, rowAdd (mulf (blkAt V c t) (blkAt V c t)) zeroRow) := by
  rw [outsAt4_A V c t h0]
  unfold out4_A_3 out4_A_4 out4_A_5
  rw [View.read_writes_eq_canon _ _ _ (cover4_A_3 _ _ _ _ _ _ _ _ _ _ _ _ _ _ _ _ _ _), View.read_writes_eq_canon _ _ _ (cover4_A_4 _ _ _ _ _ _ _ _ _ _ _ _ _ _ _ _ _ _),
    View.read_writes_eq_canon _ _ _ (cover4_A_5 _ _ _ _ _ _ _ _ _ _ _ _ _ _ _ _ _ _)]
  unfold kernelRun4_A
  dsimp only
  sl_unfold_words
  simp only [View.canon_cons_unit_zero (S := S2000x128) hz, View.canon_cons_unit_zero (S := S1x128) hz, View.readCov_unit_zero (S := S1x128) _ hz,
    View.readAt_eq_ld, (hs4_0 t).read_unread, (hs4_1 t).read_unread, (hs4_2 t).read_unread, View.ld_unit_zero (S := S2000x128) hz,
    View.ld_unit_zero (S := S1x128) hz]
  rfl

theorem outs_B (t : Fin cfg4.N) (h0 : ¬t.val % 25 = 0) :
    outsAt4 V c t.val t.isLt
      = (blkAt V c t, rowAdd (blkAt V c t) (outsAt4 V c (t.val - 1) (Nat.lt_of_le_of_lt (Nat.sub_le _ _) t.isLt)).2.1,
          rowAdd (mulf (blkAt V c t) (blkAt V c t)) (outsAt4 V c (t.val - 1) (Nat.lt_of_le_of_lt (Nat.sub_le _ _) t.isLt)).2.2) := by
  rw [outsAt4_B V c t h0]
  unfold out4_B_3 out4_B_4 out4_B_5
  rw [View.read_writes_eq_canon _ _ _ (cover4_B_3 _ _ _ _ _ _ _ _ _ _ _ _ _ _ _ _ _ _ _ _), View.read_writes_eq_canon _ _ _ (cover4_B_4 _ _ _ _ _ _ _ _ _ _ _ _ _ _ _ _ _ _ _ _),
    View.read_writes_eq_canon _ _ _ (cover4_B_5 _ _ _ _ _ _ _ _ _ _ _ _ _ _ _ _ _ _ _ _)]
  unfold kernelRun4_B
  dsimp only
  sl_unfold_words
  simp only [View.canon_cons_unit_zero (S := S2000x128) hz, View.canon_cons_unit_zero (S := S1x128) hz, View.readCov_unit_zero (S := S1x128) _ hz,
    View.readAt_eq_ld, (hs4_0 t).read_unread, (hs4_1 t).read_unread, (hs4_2 t).read_unread, (hs4_4 t).read_unread, (hs4_5 t).read_unread, View.ld_unit_zero (S := S2000x128) hz,
    View.ld_unit_zero (S := S1x128) hz]
  rfl

theorem xmid_eq :
    (dat4 (F := Ideal) V c).arrAt 3 cfg4.N = xmid (V c main_v76) (V c main_v62_1) (V c main_v77) := by
  refine (dat4 (F := Ideal) V c).arrAt_eq_of_cover 3 (X V c) (fun t _ => ?_) fun i => ?_
  · funext j
    show (outsAt4 V c t.val t.isLt).1 j = X V c (((cfg4.win 3).blk t).view.emb j)
    have hb : (outsAt4 V c t.val t.isLt).1 = blkAt V c t := by
      by_cases h0 : t.val % 25 = 0
      · exact congrArg Prod.fst (outs_A V c t h0)
      · exact congrArg Prod.fst (outs_B V c t h0)
    rw [hb]
    exact (blkAt_apply V c t j _ (by show win4_3.index t 0 * 2000 + 1 * (j 0).val = _; rw [(idx_facts4 t).2.2]; omega)).trans
      (congrArg (X V c) (BlockCore.emb_rows _ _ j).symm)
  · obtain ⟨t, y, h⟩ := BlockCore.rows_onto N_4 win4_3.index (fun t => (idx_facts4 t).2.2) i
    exact ⟨t, flush4_3 t, BlockCore.mem_of_emb y (h _)⟩

/-- After the last point the two rows hold the column sums and the column sums of squares over all 50000 rows. -/
theorem last (t : Fin cfg4.N) (h24 : t.val = 24) :
    (outsAt4 V c t.val t.isLt).2.1 = colSum (X V c) ∧ (outsAt4 V c t.val t.isLt).2.2 = colSumSq (X V c) :=
  run_stats N_4.le (X V c) (fun n h => (outsAt4 V c n h).2) (fun n h => blkAt V c ⟨n, h⟩) (fun n h => blkAt_apply V c ⟨n, h⟩)
    (fun n h h0 => congrArg Prod.snd (outs_A V c ⟨n, h⟩ h0)) (fun n h h0 => congrArg Prod.snd (outs_B V c ⟨n, h⟩ h0)) t.val t.isLt h24

theorem sum_eq : (dat4 (F := Ideal) V c).arrAt 4 cfg4.N = colSum (xmid (V c main_v76) (V c main_v62_1) (V c main_v77)) := by
  have e : ∀ (t : Fin cfg4.N) (j : SR.Idx), ((cfg4.win 4).blk t).view.emb j = j := fun t j => BlockCore.emb_full _ _ j
  refine (dat4 (F := Ideal) V c).arrAt_eq_of_cover 4 _ (fun t hf => ?_) fun i => ?_
  · have hl := (last V c t (by have := (flush4_4 t).mp hf; have := t.isLt.trans_eq N_4; omega)).1
    generalize colSum (X V c) = G at hl ⊢
    funext j
    show (outsAt4 V c t.val t.isLt).2.1 j = G (((cfg4.win 4).blk t).view.emb j)
    rw [e, hl]
  · obtain ⟨t, ht⟩ : ∃ t : Fin cfg4.N, t.val = 24 := ⟨⟨24, Nat.lt_of_lt_of_eq (by decide) N_4.symm⟩, rfl⟩
    exact ⟨t, (flush4_4 t).mpr (by omega), BlockCore.mem_of_emb i (e t i)⟩

theorem sumsq_eq : (dat4 (F := Ideal) V c).arrAt 5 cfg4.N = colSumSq (xmid (V c main_v76) (V c main_v62_1) (V c main_v77)) := by
  have e : ∀ (t : Fin cfg4.N) (j : SR.Idx), ((cfg4.win 5).blk t).view.emb j = j := fun t j => BlockCore.emb_full _ _ j
  refine (dat4 (F := Ideal) V c).arrAt_eq_of_cover 5 _ (fun t hf => ?_) fun i => ?_
  · have hl := (last V c t (by have := (flush4_5 t).mp hf; have := t.isLt.trans_eq N_4; omega)).2
    generalize colSumSq (X V c) = G at hl ⊢
    funext j
    show (outsAt4 V c t.val t.isLt).2.2 j = G (((cfg4.win 5).blk t).view.emb j)
    rw [e, hl]
  · obtain ⟨t, ht⟩ : ∃ t : Fin cfg4.N, t.val = 24 := ⟨⟨24, Nat.lt_of_lt_of_eq (by decide) N_4.symm⟩, rfl⟩
    exact ⟨t, (flush4_5 t).mpr (by omega), BlockCore.mem_of_emb i (e t i)⟩

end Value

end Cert.KernelIdeal.RegStats4

end
-- ==== Proof.RegStats7.lean ====
/-
  What the region leaves in its three outputs, on the extended reals: the array of sums, and that array's column
  sums and column sums of squares.
-/
import proofs.«428539_j48352741818636_1_alg».proof.Proof.Gen.KernelIdeal.Frame
import proofs.«428539_j48352741818636_1_alg».proof.Proof.StatsCore
import proofs.«428539_j48352741818636_1_alg».proof.Proof.BlockCore
import Idealize.ShloMosaic.Lib.Tactic

noncomputable section

namespace Cert.KernelIdeal.RegStats7

open Idealize.ShloMosaic Idealize.ShloMosaic.TcCoe Idealize.ShloMosaic.ValueIdx Idealize.SL.Sem Cert.KernelIdeal Cert.KernelIdeal.Gen Cert.GCN Cert.GCN.Stats
open scoped BigOperators

section Value

variable (V : (c : Dev nD) → (b : Ref sig .tc) → Buf (Elt Ideal) ((c : Thread nD τ).loc b)) (c : Dev nD)

abbrev X : SN.Idx → EReal := xmid (V c main_v105) (V c main_v91_1) (V c main_v106)

/-- The block of sums the region forms at point t. -/
abbrev blkAt (t : Fin cfg7.N) : FVec Ideal SB .f32 := blkSum (iblk7 V c 0 t) (iblk7 V c 1 t) (iblk7 V c 2 t)

theorem idx_facts7 : ∀ t : Fin cfg7.N, win7_0.index t 0 = t.val ∧ win7_1.index t 0 = t.val ∧ win7_3.index t 0 = t.val :=
  (by decide +kernel : ∀ t : Fin grid7.N, _)

/-- Row r of the block at point t is row 2000 t + r of the array of sums: each input block sits there in its array. -/
theorem blkAt_apply (t : Fin cfg7.N) (j : SB.Idx) (m : Fin 50000) (e : m.val = 2000 * t.val + (j 0).val) :
    blkAt V c t j = X V c (ix2 m (j 1)) := by
  obtain ⟨p, q, -⟩ := idx_facts7 t
  have ea : ((cfg7.win 0).blk t).view.emb (ix2 (j 0) (j 1)) = ix2 m (j 1) :=
    emb_row _ _ (ix2 (j 0) (j 1)) m (by show win7_0.index t 0 * 2000 + (j 0).val = _; omega)
  have es : ((cfg7.win 1).blk t).view.emb (ix2 (j 0) (j 1)) = ix2 m (j 1) :=
    emb_row _ _ (ix2 (j 0) (j 1)) m (by show win7_1.index t 0 * 2000 + (j 0).val = _; omega)
  have eb : ((cfg7.win 2).blk t).view.emb (ix2 (0 : Fin 1) (j 1)) = ix2 0 (j 1) := BlockCore.emb_full _ _ (ix2 (0 : Fin 1) (j 1))
  rw [eq_ix2 j]
  refine (blkSum_apply _ _ _ (j 0) (j 1)).trans ?_
  exact congrArg₂ (· + ·) (congrArg₂ (· + ·) (congrArg (V c main_v105) ea) (congrArg (V c main_v91_1) es)) (congrArg (V c main_v106) eb)

theorem outs_A (t : Fin cfg7.N) (h0 : t.val % 25 = 0) :
    outsAt7 V c t.val t.isLt
      = (blkAt V c t, rowAdd (blkAt V c t) zeroRow, rowAdd (mulf (blkAt V c t) (blkAt V c t)) zeroRow) := by
  rw [outsAt7_A V c t h0]
  unfold out7_A_3 out7_A_4 out7_A_5
  rw [View.read_writes_eq_canon _ _ _ (cover7_A_3 _ _ _ _ _ _ _ _ _ _ _ _ _ _ _ _ _ _), View.read_writes_eq_canon _ _ _ (cover7_A_4 _ _ _ _ _ _ _ _ _ _ _ _ _ _ _ _ _ _),
    View.read_writes_eq_canon _ _ _ (cover7_A_5 _ _ _ _ _ _ _ _ _ _ _ _ _ _ _ _ _ _)]
  unfold kernelRun7_A
  dsimp only
  sl_unfold_words
  simp only [View.canon_cons_unit_zero (S := S2000x128) hz, View.canon_cons_unit_zero (S := S1x128) hz, View.readCov_unit_zero (S := S1x128) _ hz,
    View.readAt_eq_ld, (hs7_0 t).read_unread, (hs7_1 t).read_unread, (hs7_2 t).read_unread, View.ld_unit_zero (S := S2000x128) hz,
    View.ld_unit_zero (S := S1x128) hz]
  rfl

theorem outs_B (t : Fin cfg7.N) (h0 : ¬t.val % 25 = 0) :
    outsAt7 V c t.val t.isLt
      = (blkAt V c t, rowAdd (blkAt V c t) (outsAt7 V c (t.val - 1) (Nat.lt_of_le_of_lt (Nat.sub_le _ _) t.isLt)).2.1,
          rowAdd (mulf (blkAt V c t) (blkAt V c t)) (outsAt7 V c (t.val - 1) (Nat.lt_of_le_of_lt (Nat.sub_le _ _) t.isLt)).2.2) := by
  rw [outsAt7_B V c t h0]
  unfold out7_B_3 out7_B_4 out7_B_5
  rw [View.read_writes_eq_canon _ _ _ (cover7_B_3 _ _ _ _ _ _ _ _ _ _ _ _ _ _ _ _ _ _ _ _), View.read_writes_eq_canon _ _ _ (cover7_B_4 _ _ _ _ _ _ _ _ _ _ _ _ _ _ _ _ _ _ _ _),
    View.read_writes_eq_canon _ _ _ (cover7_B_5 _ _ _ _ _ _ _ _ _ _ _ _ _ _ _ _ _ _ _ _)]
  unfold kernelRun7_B
  dsimp only
  sl_unfold_words
  simp only [View.canon_cons_unit_zero (S := S2000x128) hz, View.canon_cons_unit_zero (S := S1x128) hz, View.readCov_unit_zero (S := S1x128) _ hz,
    View.readAt_eq_ld, (hs7_0 t).read_unread, (hs7_1 t).read_unread, (hs7_2 t).read_unread, (hs7_4 t).read_unread, (hs7_5 t).read_unread, View.ld_unit_zero (S := S2000x128) hz,
    View.ld_unit_zero (S := S1x128) hz]
  rfl

theorem xmid_eq :
    (dat7 (F := Ideal) V c).arrAt 3 cfg7.N = xmid (V c main_v105) (V c main_v91_1) (V c main_v106) := by
  refine (dat7 (F := Ideal) V c).arrAt_eq_of_cover 3 (X V c) (fun t _ => ?_) fun i => ?_
  · funext j
    show (outsAt7 V c t.val t.isLt).1 j = X V c (((cfg7.win 3).blk t).view.emb j)
    have hb : (outsAt7 V c t.val t.isLt).1 = blkAt V c t := by
      by_cases h0 : t.val % 25 = 0
      · exact congrArg Prod.fst (outs_A V c t h0)
      · exact congrArg Prod.fst (outs_B V c t h0)
    rw [hb]
    exact (blkAt_apply V c t j _ (by show win7_3.index t 0 * 2000 + 1 * (j 0).val = _; rw [(idx_facts7 t).2.2]; omega)).trans
      (congrArg (X V c) (BlockCore.emb_rows _ _ j).symm)
  · obtain ⟨t, y, h⟩ := BlockCore.rows_onto N_7 win7_3.index (fun t => (idx_facts7 t).2.2) i
    exact ⟨t, flush7_3 t, BlockCore.mem_of_emb y (h _)⟩

/-- After the last point the two rows hold the column sums and the column sums of squares over all 50000 rows. -/
theorem last (t : Fin cfg7.N) (h24 : t.val = 24) :
    (outsAt7 V c t.val t.isLt).2.1 = colSum (X V c) ∧ (outsAt7 V c t.val t.isLt).2.2 = colSumSq (X V c) :=
  run_stats N_7.le (X V c) (fun n h => (outsAt7 V c n h).2) (fun n h => blkAt V c ⟨n, h⟩) (fun n h => blkAt_apply V c ⟨n, h⟩)
    (fun n h h0 => congrArg Prod.snd (outs_A V c ⟨n, h⟩ h0)) (fun n h h0 => congrArg Prod.snd (outs_B V c ⟨n, h⟩ h0)) t.val t.isLt h24

theorem sum_eq : (dat7 (F := Ideal) V c).arrAt 4 cfg7.N = colSum (xmid (V c main_v105) (V c main_v91_1) (V c main_v106)) := by
  have e : ∀ (t : Fin cfg7.N) (j : SR.Idx), ((cfg7.win 4).blk t).view.emb j = j := fun t j => BlockCore.emb_full _ _ j
  refine (dat7 (F := Ideal) V c).arrAt_eq_of_cover 4 _ (fun t hf => ?_) fun i => ?_
  · have hl := (last V c t (by have := (flush7_4 t).mp hf; have := t.isLt.trans_eq N_7; omega)).1
    generalize colSum (X V c) = G at hl ⊢
    funext j
    show (outsAt7 V c t.val t.isLt).2.1 j = G (((cfg7.win 4).blk t).view.emb j)
    rw [e, hl]
  · obtain ⟨t, ht⟩ : ∃ t : Fin cfg7.N, t.val = 24 := ⟨⟨24, Nat.lt_of_lt_of_eq (by decide) N_7.symm⟩, rfl⟩
    exact ⟨t, (flush7_4 t).mpr (by omega), BlockCore.mem_of_emb i (e t i)⟩

theorem sumsq_eq : (dat7 (F := Ideal) V c).arrAt 5 cfg7.N = colSumSq (xmid (V c main_v105) (V c main_v91_1) (V c main_v106)) := by
  have e : ∀ (t : Fin cfg7.N) (j : SR.Idx), ((cfg7.win 5).blk t).view.emb j = j := fun t j => BlockCore.emb_full _ _ j
  refine (dat7 (F := Ideal) V c).arrAt_eq_of_cover 5 _ (fun t hf => ?_) fun i => ?_
  · have hl := (last V c t (by have := (flush7_5 t).mp hf; have := t.isLt.trans_eq N_7; omega)).2
    generalize colSumSq (X V c) = G at hl ⊢
    funext j
    show (outsAt7 V c t.val t.isLt).2.2 j = G (((cfg7.win 5).blk t).view.emb j)
    rw [e, hl]
  · obtain ⟨t, ht⟩ : ∃ t : Fin cfg7.N, t.val = 24 := ⟨⟨24, Nat.lt_of_lt_of_eq (by decide) N_7.symm⟩, rfl⟩
    exact ⟨t, (flush7_5 t).mpr (by omega), BlockCore.mem_of_emb i (e t i)⟩

end Value

end Cert.KernelIdeal.RegStats7

end
-- ==== Proof.RegApply2.lean ====
/-
  Region 2: the normalisation of the node features, clipped below at zero; after its 25 points the output holds it.
-/
import proofs.«428539_j48352741818636_1_alg».proof.Proof.Gen.KernelIdeal.Frame
import proofs.«428539_j48352741818636_1_alg».proof.Proof.BlockCore

noncomputable section

namespace Cert.KernelIdeal.RegApply2

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg2.N, win2_5.index t 0 = t.val := (by decide +kernel : ∀ t : Fin grid2.N, _)

/-- The array row in which row `p` of a block at point `t` sits. -/
abbrev row (t : Fin cfg2.N) (p : Fin 2000) : Fin 50000 := (win2_5.rect t).emb (ix2 p 0) 0

section
variable (c : Dev nD) (t : Fin cfg2.N)

theorem blk_0 : iblk2 V c 0 t = rows (row t) (V c main_v49_0) := funext fun j => congrArg (V c main_v49_0) (emb_rows _ _ j)

theorem blk_1 : iblk2 V c 1 t = V c main_v51 := funext fun j => congrArg (V c main_v51) (emb_full _ _ j)

theorem blk_2 : iblk2 V c 2 t = V c main_v58 := funext fun j => congrArg (V c main_v58) (emb_full _ _ j)

theorem blk_3 : iblk2 V c 3 t = V c main_v59 := funext fun j => congrArg (V c main_v59) (emb_full _ _ j)

theorem blk_4 : iblk2 V c 4 t = V c main_v60 := funext fun j => congrArg (V c main_v60) (emb_full _ _ j)

end

theorem cover (i : SN.Idx) : ∃ t : Fin cfg2.N, (cfg2.win 5).flush t = true ∧ i ∈ ((cfg2.win 5).blk t).view.set :=
  (rows_onto N_2 win2_5.index idx i).elim fun t ⟨y, h⟩ => ⟨t, flush2_5 t, mem_of_emb y (h _)⟩

theorem out_eq (c : Dev nD) :
    (dat2 (F := Ideal) V c).arrAt 5 cfg2.N = bnRelu (V c main_v49_0) (V c main_v51) (V c main_v58) (V c main_v59) (V c main_v60) :=
  (dat2 (F := Ideal) V c).arrAt_eq_of_cover 5 _ (fun t _ => by
    refine (after2_5 V c t).trans ?_
    rw [out2_5, View.canon_unit_zero hz]
    simp only [View.ld_unit_zero (S := S2000x128) hz, View.ld_unit_zero (S := S1x128) hz]
    rw [blk_0, blk_1, blk_2, blk_3, blk_4, k2_pay1_bn]
    generalize bnRelu _ _ _ _ _ = G
    exact funext fun j => (congrArg G (emb_rows _ _ j)).symm) cover

end Cert.KernelIdeal.RegApply2

end
-- ==== Proof.RegApply5.lean ====
/-
  Region 5: the normalisation of the node features, clipped below at zero; after its 25 points the output holds it.
-/
import proofs.«428539_j48352741818636_1_alg».proof.Proof.Gen.KernelIdeal.Frame
import proofs.«428539_j48352741818636_1_alg».proof.Proof.BlockCore

noncomputable section

namespace Cert.KernelIdeal.RegApply5

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg5.N, win5_5.index t 0 = t.val := (by decide +kernel : ∀ t : Fin grid5.N, _)

/-- The array row in which row `p` of a block at point `t` sits. -/
abbrev row (t : Fin cfg5.N) (p : Fin 2000) : Fin 50000 := (win5_5.rect t).emb (ix2 p 0) 0

section
variable (c : Dev nD) (t : Fin cfg5.N)

theorem blk_0 : iblk5 V c 0 t = rows (row t) (V c main_v78_0) := funext fun j => congrArg (V c main_v78_0) (emb_rows _ _ j)

theorem blk_1 : iblk5 V c 1 t = V c main_v80 := funext fun j => congrArg (V c main_v80) (emb_full _ _ j)

theorem blk_2 : iblk5 V c 2 t = V c main_v87 := funext fun j => congrArg (V c main_v87) (emb_full _ _ j)

theorem blk_3 : iblk5 V c 3 t = V c main_v88 := funext fun j => congrArg (V c main_v88) (emb_full _ _ j)

theorem blk_4 : iblk5 V c 4 t = V c main_v89 := funext fun j => congrArg (V c main_v89) (emb_full _ _ j)

end

theorem cover (i : SN.Idx) : ∃ t : Fin cfg5.N, (cfg5.win 5).flush t = true ∧ i ∈ ((cfg5.win 5).blk t).view.set :=
  (rows_onto N_5 win5_5.index idx i).elim fun t ⟨y, h⟩ => ⟨t, flush5_5 t, mem_of_emb y (h _)⟩

theorem out_eq (c : Dev nD) :
    (dat5 (F := Ideal) V c).arrAt 5 cfg5.N = bnRelu (V c main_v78_0) (V c main_v80) (V c main_v87) (V c main_v88) (V c main_v89) :=
  (dat5 (F := Ideal) V c).arrAt_eq_of_cover 5 _ (fun t _ => by
    refine (after5_5 V c t).trans ?_
    rw [out5_5, View.canon_unit_zero hz]
    simp only [View.ld_unit_zero (S := S2000x128) hz, View.ld_unit_zero (S := S1x128) hz]
    rw [blk_0, blk_1, blk_2, blk_3, blk_4, k5_pay1_bn]
    generalize bnRelu _ _ _ _ _ = G
    exact funext fun j => (congrArg G (emb_rows _ _ j)).symm) cover

end Cert.KernelIdeal.RegApply5

end
-- ==== Proof.RegApply8.lean ====
/-
  Region 8: the normalisation of the node features; after its 25 points the output holds it.
-/
import proofs.«428539_j48352741818636_1_alg».proof.Proof.Gen.KernelIdeal.Frame
import proofs.«428539_j48352741818636_1_alg».proof.Proof.BlockCore

noncomputable section

namespace Cert.KernelIdeal.RegApply8

open Idealize.ShloMosaic Idealize.ShloMosaic.TcCoe Idealize.ShloMosaic.ValueIdx Cert.KernelIdeal Cert.KernelIdeal.Gen Cert.GCN Cert.KernelIdeal.BlockCore

variable (V : (c : Dev nD) → (b : Ref sig .tc) → Buf (Elt Ideal) ((c : Thread nD τ).loc b))

theorem idx : ∀ t : Fin cfg8.N, win8_5.index t 0 = t.val := (by decide +kernel : ∀ t : Fin grid8.N, _)

/-- The array row in which row `p` of a block at point `t` sits. -/
abbrev row (t : Fin cfg8.N) (p : Fin 2000) : Fin 50000 := (win8_5.rect t).emb (ix2 p 0) 0

section
variable (c : Dev nD) (t : Fin cfg8.N)

theorem blk_0 : iblk8 V c 0 t = rows (row t) (V c main_v107_0) := funext fun j => congrArg (V c main_v107_0) (emb_rows _ _ j)

theorem blk_1 : iblk8 V c 1 t = V c main_v109 := funext fun j => congrArg (V c main_v109) (emb_full _ _ j)

theorem blk_2 : iblk8 V c 2 t = V c main_v116 := funext fun j => congrArg (V c main_v116) (emb_full _ _ j)

theorem blk_3 : iblk8 V c 3 t = V c main_v117 := funext fun j => congrArg (V c main_v117) (emb_full _ _ j)

theorem blk_4 : iblk8 V c 4 t = V c main_v118 := funext fun j => congrArg (V c main_v118) (emb_full _ _ j)

end

theorem cover (i : SN.Idx) : ∃ t : Fin cfg8.N, (cfg8.win 5).flush t = true ∧ i ∈ ((cfg8.win 5).blk t).view.set :=
  (rows_onto N_8 win8_5.index idx i).elim fun t ⟨y, h⟩ => ⟨t, flush8_5 t, mem_of_emb y (h _)⟩

theorem out_eq (c : Dev nD) :
    (dat8 (F := Ideal) V c).arrAt 5 cfg8.N = bnAffine (V c main_v107_0) (V c main_v109) (V c main_v116) (V c main_v117) (V c main_v118) :=
  (dat8 (F := Ideal) V c).arrAt_eq_of_cover 5 _ (fun t _ => by
    refine (after8_5 V c t).trans ?_
    rw [out8_5, View.canon_unit_zero hz]
    simp only [View.ld_unit_zero (S := S2000x128) hz, View.ld_unit_zero (S := S1x128) hz]
    rw [blk_0, blk_1, blk_2, blk_3, blk_4, k8_pay1_bn]
    generalize bnAffine _ _ _ _ _ = G
    exact funext fun j => (congrArg G (emb_rows _ _ j)).symm) cover

end Cert.KernelIdeal.RegApply8

end
-- ==== Proof.RegPool9.lean ====
/-
  The pooling region: 50000 nodes in 25 blocks of 2000 rows. After block t entry (g, d) of the running block is the sum
  of feature (n, d) over the rows n below 2000 · (t + 1) whose group word is g's; after the last, the pooled sums.
-/
import proofs.«428539_j48352741818636_1_alg».proof.Proof.Gen.KernelIdeal.Frame
import proofs.«428539_j48352741818636_1_alg».proof.Proof.Spec
import proofs.«428539_j48352741818636_1_alg».proof.Proof.LibMatRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegPool9

open Idealize.ShloMosaic Idealize.ShloMosaic.TcCoe Idealize.ShloMosaic.ValueIdx Idealize.SL.Sem Cert.KernelIdeal Cert.KernelIdeal.Gen Cert.GCN
open Idealize.ShloMosaic.Pipeline (Dat)

section Pieces
variable {F : FTy → Type} [FloatOps F] (c : Dev nD) (i : grid9.Coords) (arg1 : Memref sig .tc .vmem S2000x128 .f32)
  (harg1 : arg1.IsWhole) (arg2 : Memref sig .tc .vmem S2000x1 .i32) (harg2 : arg2.IsWhole)
  (arg3 : Memref sig .tc .vmem S256x128 .f32) (harg3 : arg3.IsWhole) (x0 : Vec F S2000x128 .f32) (x1 : Vec F S2000x1 .i32)

theorem hz9 : (![0, 0] : Fin 2 → Nat) = fun _ => 0 := funext fun a => by fin_cases a <;> rfl

/-- Past the first point the block ends holding the update of what it held before. -/
theorem out9_B_2_eq (hc0 : ¬cond9_0 i) (xo2 : Vec F S256x128 .f32) :
    out9_B_2 c i arg1 harg1 arg2 harg2 arg3 harg3 hc0 x0 x1 xo2 = k9_pay2 x1 x0 xo2 := by
  unfold out9_B_2
  rw [View.read_writes_eq_canon _ _ _ (cover9_B_2 c i arg1 harg1 arg2 harg2 arg3 harg3 hc0 x0 x1 xo2)]
  unfold kernelRun9_B
  dsimp only
  sl_unfold_words
  rw [View.canon_unit_zero hz9]
  simp only [View.readAt_eq_ld, harg1.read_unread, harg2.read_unread, harg3.read_unread,
    View.ld_unit_zero (S := S2000x128) hz9, View.ld_unit_zero (S := S2000x1) hz9, View.ld_unit_zero (S := S256x128) hz9]

/-- At the first point the block is set to zero, then updated. -/
theorem out9_A_2_eq (hc0 : cond9_0 i) :
    out9_A_2 c i arg1 harg1 arg2 harg2 arg3 harg3 hc0 x0 x1 = k9_pay2 x1 x0 (k9_pay1 (F := F)) := by
  unfold out9_A_2
  rw [View.read_writes_eq_canon _ _ _ (cover9_A_2 c i arg1 harg1 arg2 harg2 arg3 harg3 hc0 x0 x1)]
  unfold kernelRun9_A
  dsimp only
  sl_unfold_words
  rw [View.canon_cons_unit_zero (S := S256x128) hz9, View.readCov_unit_zero (S := S256x128) _ hz9]
  simp only [View.readAt_eq_ld, harg1.read_unread, harg2.read_unread,
    View.ld_unit_zero (S := S2000x128) hz9, View.ld_unit_zero (S := S2000x1) hz9]

end Pieces

/-- The comparison's bit, widened and converted, is 1 where the word is the group's and 0 elsewhere. -/
theorem onehot_entry (w : BitVec 32) (g : Nat) :
    ((((IntOp.cmpi .eq w (BitVec.ofNat 32 g)).setWidth 32).toInt : ℝ) : EReal)
      = if w = BitVec.ofNat 32 g then (1 : EReal) else 0 := by
  unfold IntOp.cmpi
  by_cases h : w = BitVec.ofNat 32 g
  · subst h; simp
  · have hb : (w == BitVec.ofNat 32 g) = false := by rw [beq_eq_false_iff_ne]; exact h
    simp [hb, h]

theorem dot9_eq : dot_S2000x256_S2000x128_S256x128_0_0_1_1_n_n
    = Cert.MatRead.colDot 2000 256 128 dot_S2000x256_S2000x128_S256x128_0_0_1_1_n_n_wf := rfl

theorem k9_pay1_apply (j : S256x128.Idx) : (k9_pay1 : FVec Ideal S256x128 .f32) j = 0 :=
  Ideal.ofBits_zero_f32

/-- On the extended reals 1 · x = x and 0 · x = 0, so the product with the 0/1 matrix selects the rows. -/
theorem k9_pay2_apply (x1 : Vec Ideal S2000x1 .i32) (x0 : Vec Ideal S2000x128 .f32) (xo : Vec Ideal S256x128 .f32)
    (g : Fin 256) (d : Fin 128) :
    (k9_pay2 x1 x0 xo : FVec Ideal S256x128 .f32) (ix2 g d)
      = xo (ix2 g d) + ∑ p : Fin 2000, (if x1 (ix2 p (0 : Fin 1)) = BitVec.ofNat 32 g.val then x0 (ix2 p d) else 0) := by
  have hA : ∀ p : Fin 2000,
      (truncf .bf16 (sitofp .f32 (extui 32 (cmpi .eq (broadcastTo S2000x256 x1 broadcasts_S2000x1_S2000x256)
        (iota .tc S2000x256 32 [1] iota_S2000x256_d1_w32)) natLt_1_32)) bitsLt_bf16_f32 : FVec Ideal S2000x256 .bf16) (ix2 p g)
        = if x1 (ix2 p (0 : Fin 1)) = BitVec.ofNat 32 g.val then (1 : EReal) else 0 := by
    intro p
    show ((((IntOp.cmpi .eq (broadcastTo S2000x256 x1 broadcasts_S2000x1_S2000x256 (ix2 p g))
      (iota .tc S2000x256 32 [1] iota_S2000x256_d1_w32 (ix2 p g))).setWidth 32).toInt : ℝ) : EReal) = _
    rw [Cert.MatRead.broadcastTo_oneCol_apply, iota_single_apply]
    exact onehot_entry _ _
  unfold k9_pay2
  rw [shapeCast_self, shapeCast_self, shapeCast_self, dot9_eq]
  show xo (ix2 g d) + matmul (F := Ideal) (Cert.MatRead.colDot 2000 256 128 dot_S2000x256_S2000x128_S256x128_0_0_1_1_n_n_wf) none _ _
    (constant ⟨2, ![256, 128]⟩ .f32 0x00000000#32) (ix2 g d) = _
  rw [Cert.MatRead.matmul_colDot_apply]
  congr 1
  refine Finset.sum_congr rfl fun p _ => ?_
  rw [hA p]
  show (if _ then (1 : EReal) else 0) * x0 (ix2 p d) = _
  rw [ite_mul, one_mul, zero_mul]

section Value
variable (V : (c : Dev nD) → (b : Ref sig .tc) → Buf (Elt Ideal) ((c : Thread nD τ).loc b))

abbrev feat9 (c : Dev nD) : Vec Ideal S50000x128 .f32 := V c main_v119
abbrev word9 (c : Dev nD) : Vec Ideal S50000x1 .i32 := V c main_v124
abbrev fblk9 (c : Dev nD) (t : Fin cfg9.N) : Vec Ideal S2000x128 .f32 := iblk9 V c 0 t
abbrev wblk9 (c : Dev nD) (t : Fin cfg9.N) : Vec Ideal S2000x1 .i32 := iblk9 V c 1 t

theorem idx_facts9 : ∀ t : Fin grid9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0 := by
  decide +kernel

theorem fblk9_apply (c : Dev nD) (t : Fin cfg9.N) (p : Fin 2000) (d : Fin 128) (n : Fin 50000)
    (hn : n.val = 2000 * t.val + p.val) :
    fblk9 V c t (ix2 p d) = feat9 V c (ix2 n d) := by
  obtain ⟨e0, e1, -, -, -, -⟩ := idx_facts9 t
  show V c main_v119 (((cfg9.win 0).blk t).view.emb (ix2 p d)) = V c main_v119 (ix2 n d)
  refine congrArg (V c main_v119) (funext fun a => Fin.ext ?_)
  match a with
  | ⟨0, _⟩ => show win9_0.index t (0 : Fin 2) * 2000 + 1 * p.val = n.val; omega
  | ⟨1, _⟩ => show win9_0.index t (1 : Fin 2) * 128 + 1 * d.val = d.val; omega

theorem wblk9_apply (c : Dev nD) (t : Fin cfg9.N) (p : Fin 2000) (n : Fin 50000)
    (hn : n.val = 2000 * t.val + p.val) :
    wblk9 V c t (ix2 p (0 : Fin 1)) = word9 V c (ix2 n (0 : Fin 1)) := by
  obtain ⟨-, -, e0, e1, -, -⟩ := idx_facts9 t
  show V c main_v124 (((cfg9.win 1).blk t).view.emb (ix2 p (0 : Fin 1))) = V c main_v124 (ix2 n (0 : Fin 1))
  refine congrArg (V c main_v124) (funext fun a => Fin.ext ?_)
  match a with
  | ⟨0, _⟩ => show win9_1.index t (0 : Fin 2) * 2000 + 1 * p.val = n.val; omega
  | ⟨1, _⟩ => show win9_1.index t (1 : Fin 2) * 1 + 1 * (0 : Fin 1).val = (0 : Fin 1).val; omega

/-- Row n's contribution to entry (g, d); 0 past the last row. -/
def term9 (h : SN.Idx → EReal) (seg : SC.Idx → BitVec 32) (g : Fin 256) (d : Fin 128) (n : ℕ) : EReal :=
  if hn : n < 50000 then (if seg (ix2 ⟨n, hn⟩ (0 : Fin 1)) = BitVec.ofNat 32 g.val then h (ix2 ⟨n, hn⟩ d) else 0) else 0

theorem blocksum9 (c : Dev nD) (t : Fin cfg9.N) (g : Fin 256) (d : Fin 128) :
    (∑ p : Fin 2000, (if wblk9 V c t (ix2 p (0 : Fin 1)) = BitVec.ofNat 32 g.val then fblk9 V c t (ix2 p d) else 0))
      = ∑ p ∈ Finset.range 2000, term9 (feat9 V c) (word9 V c) g d (2000 * t.val + p) := by
  have hN : t.val < 25 := lt_of_lt_of_eq t.isLt (show cfg9.N = 25 from N_9)
  rw [← Fin.sum_univ_eq_sum_range (fun p => term9 (feat9 V c) (word9 V c) g d (2000 * t.val + p)) 2000]
  refine Finset.sum_congr rfl fun p _ => ?_
  have hp : 2000 * t.val + p.val < 50000 := by have := p.isLt; omega
  unfold term9
  rw [dif_pos hp, fblk9_apply V c t p d ⟨2000 * t.val + p.val, hp⟩ rfl, wblk9_apply V c t p ⟨2000 * t.val + p.val, hp⟩ rfl]

/-- After point n the block holds, at (g, d), the contributions of the rows below 2000 · (n + 1). -/
theorem outsAt9_apply (c : Dev nD) (g : Fin 256) (d : Fin 128) : ∀ (n : ℕ) (hn : n < cfg9.N),
    outsAt9 V c n hn (ix2 g d) = ∑ m ∈ Finset.range (2000 * (n + 1)), term9 (feat9 V c) (word9 V c) g d m
  | 0, hn => by
    rw [outsAt9_A V c ⟨0, hn⟩ rfl, out9_A_2_eq]
    refine (k9_pay2_apply (wblk9 V c ⟨0, hn⟩) (fblk9 V c ⟨0, hn⟩) (k9_pay1 (F := Ideal)) g d).trans ?_
    rw [k9_pay1_apply, zero_add, blocksum9 V c ⟨0, hn⟩ g d]
    refine Finset.sum_congr rfl fun p _ => ?_
    show term9 _ _ g d (2000 * 0 + p) = _
    rw [Nat.mul_zero, Nat.zero_add]
  | n + 1, hn => by
    have hN : cfg9.N = 25 := N_9
    have hB : ¬(⟨n + 1, hn⟩ : Fin cfg9.N).val % 25 = 0 := by dsimp only; omega
    rw [outsAt9_B V c ⟨n + 1, hn⟩ hB, out9_B_2_eq]
    refine (k9_pay2_apply (wblk9 V c ⟨n + 1, hn⟩) (fblk9 V c ⟨n + 1, hn⟩)
      (outsAt9 V c n (Nat.lt_of_succ_lt hn)) g d).trans ?_
    rw [outsAt9_apply c g d n (Nat.lt_of_succ_lt hn), blocksum9 V c ⟨n + 1, hn⟩ g d,
      show 2000 * (n + 1 + 1) = 2000 * (n + 1) + 2000 from by ring, Finset.sum_range_add]

end Value

section Final
variable (V : (c : Dev nD) → (b : Ref sig .tc) → Buf (Elt Ideal) ((c : Thread nD τ).loc b))

theorem last_lt9 : 24 < cfg9.N := lt_of_lt_of_eq (by decide) N_9.symm

theorem outsAt9_last (c : Dev nD) (t : Fin cfg9.N) (h24 : t.val = 24) :
    outsAt9 V c t.val t.isLt = (poolSum (feat9 V c) (word9 V c) : Vec Ideal S256x128 .f32) := by
  funext j
  obtain ⟨g, d, rfl⟩ : ∃ (g : Fin 256) (d : Fin 128), j = ix2 g d := ⟨j 0, j 1, eq_ix2 j⟩
  rw [outsAt9_apply V c g d t.val t.isLt, h24]
  unfold poolSum
  show ∑ m ∈ Finset.range 50000, term9 (feat9 V c) (word9 V c) g d m = _
  rw [← Fin.sum_univ_eq_sum_range (term9 (feat9 V c) (word9 V c) g d) 50000]
  refine Finset.sum_congr rfl fun n _ => ?_
  unfold term9
  rw [dif_pos n.isLt]

theorem flushed9_2_eq (c : Dev nD) (t : Fin cfg9.N) (hf : (cfg9.win 2).flush t = true) :
    (dat9 V c).flushed 2 t
      = ((cfg9.win 2).blk t).view.read (Elt Ideal) (poolSum (feat9 V c) (word9 V c)) := by
  have hN : cfg9.N = 25 := N_9
  have h24 : t.val = 24 := by have := (flush9_2 t).mp hf; have := t.isLt; omega
  show (cfg9.win 2).cut (grid9.coords t) ((dat9 V c).after 2 t) = _
  rw [after9_2, outsAt9_last V c t h24]
  obtain ⟨-, -, -, -, e0, e1⟩ := idx_facts9 t
  have hz' : (fun a => win9_2.index t a * main_v125.ty.shape.size a) = fun _ => 0 := funext fun a => by
    match a with
    | ⟨0, _⟩ => show win9_2.index t (0 : Fin 2) * 256 = 0; rw [e0]
    | ⟨1, _⟩ => show win9_2.index t (1 : Fin 2) * 128 = 0; rw [e1]
  exact (Memref.read_access_unit_zero (Elt Ideal) main_v125 hz' (fun a => by rw [congrFun hz' a]; simp)
    (poolSum (feat9 V c) (word9 V c))).symm

theorem pool_eq (c : Dev nD) :
    (dat9 (F := Ideal) V c).arrAt 2 cfg9.N = poolSum (V c main_v119) (V c main_v124) :=
  (dat9 V c).arrAt_eq_of_cover 2 (poolSum (V c main_v119) (V c main_v124)) (flushed9_2_eq V c) fun i =>
    ⟨⟨24, last_lt9⟩, (flush9_2 ⟨24, last_lt9⟩).mpr rfl, by
      obtain ⟨-, -, -, -, e0, e1⟩ := idx_facts9 ⟨24, last_lt9⟩
      show i ∈ ((View.whole main_v125).slice (win9_2.rect ⟨24, last_lt9⟩)).set
      rw [View.set_slice_whole, Rect.mem_set_unit]
      intro a
      have h0 : (i 0 : Nat) < 256 := (i 0).isLt
      have h1 : (i 1 : Nat) < 128 := (i 1).isLt
      match a with
      | ⟨0, _⟩ =>
        show win9_2.index ⟨24, last_lt9⟩ (0 : Fin 2) * 256 ≤ (i 0 : Nat)
          ∧ (i 0 : Nat) < win9_2.index ⟨24, last_lt9⟩ (0 : Fin 2) * 256 + 256
        rw [e0]; omega
      | ⟨1, _⟩ =>
        show win9_2.index ⟨24, last_lt9⟩ (1 : Fin 2) * 128 ≤ (i 1 : Nat)
          ∧ (i 1 : Nat) < win9_2.index ⟨24, last_lt9⟩ (1 : Fin 2) * 128 + 128
        rw [e1]; omega⟩

end Final

end Cert.KernelIdeal.RegPool9

end
-- ==== Proof.RegIface.lean ====
/- What the ten kernel regions leave in their output arrays, gathered. -/
import proofs.«428539_j48352741818636_1_alg».proof.Proof.RegLin0
import proofs.«428539_j48352741818636_1_alg».proof.Proof.RegLin3
import proofs.«428539_j48352741818636_1_alg».proof.Proof.RegLin6
import proofs.«428539_j48352741818636_1_alg».proof.Proof.RegStats1
import proofs.«428539_j48352741818636_1_alg».proof.Proof.RegStats4
import proofs.«428539_j48352741818636_1_alg».proof.Proof.RegStats7
import proofs.«428539_j48352741818636_1_alg».proof.Proof.RegApply2
import proofs.«428539_j48352741818636_1_alg».proof.Proof.RegApply5
import proofs.«428539_j48352741818636_1_alg».proof.Proof.RegApply8
import proofs.«428539_j48352741818636_1_alg».proof.Proof.RegPool9
-- ==== Proof.KChainA.lean ====
/- What each host stretch between the regions leaves in the buffers read later, as equations over any contents. -/
import proofs.«428539_j48352741818636_1_alg».proof.Proof.Gen.KernelIdeal.Frame
import proofs.«428539_j48352741818636_1_alg».proof.Proof.Whole
set_option maxRecDepth 16384
noncomputable section
namespace Cert.KernelIdeal.KChain
open Idealize.ShloMosaic Idealize.ShloMosaic.TcCoe Idealize.ShloMosaic.ValueIdx Idealize.SL.Sem
open Cert.KernelIdeal Cert.KernelIdeal.Gen Cert.GCN
variable (V : Valuation τ sig (Elt Ideal))
theorem ops0_v1 : StableHlo.after hostOps0 V (Proc.devRef .tc main_v1) = srcOf (V (Proc.devRef .tc main_arg1)) := by
  after_results_simp
  rfl
theorem ops0_v3 : StableHlo.after hostOps0 V (Proc.devRef .tc main_v3) = dstOf (V (Proc.devRef .tc main_arg1)) := by
  after_results_simp
  rfl
set_option maxHeartbeats 2000000 in
theorem ops0_v30 : StableHlo.after hostOps0 V (Proc.devRef .tc main_v30)
    = edgeNorm (degInv (dstOf (V (Proc.devRef .tc main_arg1)))) (srcOf (V (Proc.devRef .tc main_arg1))) (dstOf (V (Proc.devRef .tc main_arg1))) := by
  after_results_simp
  rfl
set_option maxHeartbeats 2000000 in
theorem ops0_v32 : StableHlo.after hostOps0 V (Proc.devRef .tc main_v32)
    = nodeCol (mulf (degInv (dstOf (V (Proc.devRef .tc main_arg1)))) (degInv (dstOf (V (Proc.devRef .tc main_arg1))))) := by
  after_results_simp
  rfl
set_option maxHeartbeats 2000000 in
theorem ops1_v47 : StableHlo.after hostOps1 V (Proc.devRef .tc main_v47)
    = aggAt (colIdx (V (Proc.devRef .tc main_v3))) (msgNarrow (V (Proc.devRef .tc main_v33_0)) (V (Proc.devRef .tc main_v1)) (V (Proc.devRef .tc main_v30))) := by
  after_results_simp
  rfl
theorem ops1_v48 : StableHlo.after hostOps1 V (Proc.devRef .tc main_v48) = chanRow (V (Proc.devRef .tc main_arg5)) := by
  after_results_simp
  rfl
theorem ops2_v51 : StableHlo.after hostOps2 V (Proc.devRef .tc main_v51) = kMean (V (Proc.devRef .tc main_v49_1)) := by
  after_results_simp
  rfl
theorem ops2_v58 : StableHlo.after hostOps2 V (Proc.devRef .tc main_v58) = kInv (V (Proc.devRef .tc main_v49_1)) (V (Proc.devRef .tc main_v49_2)) := by
  after_results_simp
  rfl
theorem ops2_v59 : StableHlo.after hostOps2 V (Proc.devRef .tc main_v59) = chanRow (V (Proc.devRef .tc main_arg6)) := by
  after_results_simp
  rfl
theorem ops2_v60 : StableHlo.after hostOps2 V (Proc.devRef .tc main_v60) = chanRow (V (Proc.devRef .tc main_arg7)) := by
  after_results_simp
  rfl
set_option maxHeartbeats 2000000 in
theorem ops4_v76 : StableHlo.after hostOps4 V (Proc.devRef .tc main_v76)
    = aggAt (colIdx (V (Proc.devRef .tc main_v3))) (msgNarrow (V (Proc.devRef .tc main_v62_0)) (V (Proc.devRef .tc main_v1)) (V (Proc.devRef .tc main_v30))) := by
  after_results_simp
  rfl
theorem ops4_v77 : StableHlo.after hostOps4 V (Proc.devRef .tc main_v77) = chanRow (V (Proc.devRef .tc main_arg9)) := by
  after_results_simp
  rfl
theorem ops5_v80 : StableHlo.after hostOps5 V (Proc.devRef .tc main_v80) = kMean (V (Proc.devRef .tc main_v78_1)) := by
  after_results_simp
  rfl
theorem ops5_v87 : StableHlo.after hostOps5 V (Proc.devRef .tc main_v87) = kInv (V (Proc.devRef .tc main_v78_1)) (V (Proc.devRef .tc main_v78_2)) := by
  after_results_simp
  rfl
theorem ops5_v88 : StableHlo.after hostOps5 V (Proc.devRef .tc main_v88) = chanRow (V (Proc.devRef .tc main_arg10)) := by
  after_results_simp
  rfl
theorem ops5_v89 : StableHlo.after hostOps5 V (Proc.devRef .tc main_v89) = chanRow (V (Proc.devRef .tc main_arg11)) := by
  after_results_simp
  rfl
set_option maxHeartbeats 2000000 in
theorem ops7_v105 : StableHlo.after hostOps7 V (Proc.devRef .tc main_v105)
    = aggAt (colIdx (V (Proc.devRef .tc main_v3))) (msgNarrow (V (Proc.devRef .tc main_v91_0)) (V (Proc.devRef .tc main_v1)) (V (Proc.devRef .tc main_v30))) := by
  after_results_simp
  rfl
theorem ops7_v106 : StableHlo.after hostOps7 V (Proc.devRef .tc main_v106) = chanRow (V (Proc.devRef .tc main_arg13)) := by
  after_results_simp
  rfl
theorem ops8_v109 : StableHlo.after hostOps8 V (Proc.devRef .tc main_v109) = kMean (V (Proc.devRef .tc main_v107_1)) := by
  after_results_simp
  rfl
theorem ops8_v116 : StableHlo.after hostOps8 V (Proc.devRef .tc main_v116) = kInv (V (Proc.devRef .tc main_v107_1)) (V (Proc.devRef .tc main_v107_2)) := by
  after_results_simp
  rfl
theorem ops8_v117 : StableHlo.after hostOps8 V (Proc.devRef .tc main_v117) = chanRow (V (Proc.devRef .tc main_arg14)) := by
  after_results_simp
  rfl
theorem ops8_v118 : StableHlo.after hostOps8 V (Proc.devRef .tc main_v118) = chanRow (V (Proc.devRef .tc main_arg15)) := by
  after_results_simp
  rfl
end Cert.KernelIdeal.KChain
end
-- ==== Proof.KChain.lean ====
/-
  The kernel program's buffers at the boundaries of its run, at the extended reals: three layers, each a product with
  the weights, the messages summed onto their targets, the column statistics and the normalisation; then the group means.
-/
import proofs.«428539_j48352741818636_1_alg».proof.Proof.Gen.KernelIdeal.Frame
import proofs.«428539_j48352741818636_1_alg».proof.Proof.Whole
import proofs.«428539_j48352741818636_1_alg».proof.Proof.RegIface
import proofs.«428539_j48352741818636_1_alg».proof.Proof.KChainA

set_option maxRecDepth 16384

noncomputable section

namespace Cert.KernelIdeal.KChain

open Idealize.ShloMosaic Idealize.ShloMosaic.TcCoe Idealize.ShloMosaic.ValueIdx Idealize.SL.Sem
open Cert.KernelIdeal Cert.KernelIdeal.Gen Cert.GCN

variable (m : (ℓ : Loc nD τ sig) → Buf (Elt Ideal) ℓ) (ρ : Dev nD → PrngReg) (c : Dev nD) (b : Ref sig .tc)

abbrev A0 : FVec Ideal SN .f32 := m ((c : Thread nD τ).loc main_arg0)
abbrev A4 : FVec Ideal SW .f32 := m ((c : Thread nD τ).loc main_arg4)
abbrev A5 : FVec Ideal SCh .f32 := m ((c : Thread nD τ).loc main_arg5)
abbrev A6 : FVec Ideal SCh .f32 := m ((c : Thread nD τ).loc main_arg6)
abbrev A7 : FVec Ideal SCh .f32 := m ((c : Thread nD τ).loc main_arg7)
abbrev A8 : FVec Ideal SW .f32 := m ((c : Thread nD τ).loc main_arg8)
abbrev A9 : FVec Ideal SCh .f32 := m ((c : Thread nD τ).loc main_arg9)
abbrev A10 : FVec Ideal SCh .f32 := m ((c : Thread nD τ).loc main_arg10)
abbrev A11 : FVec Ideal SCh .f32 := m ((c : Thread nD τ).loc main_arg11)
abbrev A12 : FVec Ideal SW .f32 := m ((c : Thread nD τ).loc main_arg12)
abbrev A13 : FVec Ideal SCh .f32 := m ((c : Thread nD τ).loc main_arg13)
abbrev A14 : FVec Ideal SCh .f32 := m ((c : Thread nD τ).loc main_arg14)
abbrev A15 : FVec Ideal SCh .f32 := m ((c : Thread nD τ).loc main_arg15)
abbrev src : IVec SE 32 := srcOf (m ((c : Thread nD τ).loc main_arg1))
abbrev dst : IVec SE 32 := dstOf (m ((c : Thread nD τ).loc main_arg1))
abbrev dinv : FVec Ideal SV .f32 := degInv (dst m c)
abbrev d2 : FVec Ideal SC .f32 := nodeCol (mulf (dinv m c) (dinv m c))
def p1 : SN.Idx → EReal := kPre (A0 m c) (A4 m c) (A5 m c) (dinv m c) (src m c) (dst m c)
def h1 : SN.Idx → EReal := kNormRelu (p1 m c) (A6 m c) (A7 m c)
def p2 : SN.Idx → EReal := kPre (h1 m c) (A8 m c) (A9 m c) (dinv m c) (src m c) (dst m c)
def h2 : SN.Idx → EReal := kNormRelu (p2 m c) (A10 m c) (A11 m c)
def p3 : SN.Idx → EReal := kPre (h2 m c) (A12 m c) (A13 m c) (dinv m c) (src m c) (dst m c)
def h3 : SN.Idx → EReal := kNorm (p3 m c) (A14 m c) (A15 m c)

/-- A buffer that is none of a region's arrays keeps its contents across the region. -/
theorem R2 (hb : ∀ w, Pipeline.arrRef spec0 w ≠ b) :
    W2 m ρ c (no_index (Proc.devRef .tc b)) = W1 m ρ c (Proc.devRef .tc b) := W2_of_ne m ρ c b hb
theorem R4 (hb : ∀ w, Pipeline.arrRef spec1 w ≠ b) :
    W4 m ρ c (no_index (Proc.devRef .tc b)) = W3 m ρ c (Proc.devRef .tc b) := W4_of_ne m ρ c b hb
theorem R6 (hb : ∀ w, Pipeline.arrRef spec2 w ≠ b) :
    W6 m ρ c (no_index (Proc.devRef .tc b)) = W5 m ρ c (Proc.devRef .tc b) := W6_of_ne m ρ c b hb
theorem R7 (hb : ∀ w, Pipeline.arrRef spec3 w ≠ b) :
    W7 m ρ c (no_index (Proc.devRef .tc b)) = W6 m ρ c (Proc.devRef .tc b) := W7_of_ne m ρ c b hb
theorem R9 (hb : ∀ w, Pipeline.arrRef spec4 w ≠ b) :
    W9 m ρ c (no_index (Proc.devRef .tc b)) = W8 m ρ c (Proc.devRef .tc b) := W9_of_ne m ρ c b hb
theorem R11 (hb : ∀ w, Pipeline.arrRef spec5 w ≠ b) :
    W11 m ρ c (no_index (Proc.devRef .tc b)) = W10 m ρ c (Proc.devRef .tc b) := W11_of_ne m ρ c b hb
theorem R12 (hb : ∀ w, Pipeline.arrRef spec6 w ≠ b) :
    W12 m ρ c (no_index (Proc.devRef .tc b)) = W11 m ρ c (Proc.devRef .tc b) := W12_of_ne m ρ c b hb
theorem R14 (hb : ∀ w, Pipeline.arrRef spec7 w ≠ b) :
    W14 m ρ c (no_index (Proc.devRef .tc b)) = W13 m ρ c (Proc.devRef .tc b) := W14_of_ne m ρ c b hb
theorem R16 (hb : ∀ w, Pipeline.arrRef spec8 w ≠ b) :
    W16 m ρ c (no_index (Proc.devRef .tc b)) = W15 m ρ c (Proc.devRef .tc b) := W16_of_ne m ρ c b hb
theorem R18 (hb : ∀ w, Pipeline.arrRef spec9 w ≠ b) :
    W18 m ρ c (no_index (Proc.devRef .tc b)) = W17 m ρ c (Proc.devRef .tc b) := W18_of_ne m ρ c b hb

theorem W0_eq : W0 m ρ c (no_index (Proc.devRef .tc b)) = m ((c : Thread nD τ).loc b) := rfl

/-- The squared factors are an input array of the first and of the fourth region, which leave it as entered. -/
theorem I2 : W2 m ρ c (Proc.devRef .tc main_v32) = W1 m ρ c (Proc.devRef .tc main_v32) :=
  (W2_arr m ρ c 2).trans (((dat0 (V1 m ρ) c).arrAt_in 2 rfl _).trans (A_eq0 (V1 m ρ) c 2))
theorem I7 : W7 m ρ c (Proc.devRef .tc main_v32) = W6 m ρ c (Proc.devRef .tc main_v32) :=
  (W7_arr m ρ c 2).trans (((dat3 (V6 m ρ) c).arrAt_in 2 rfl _).trans (A_eq3 (V6 m ρ) c 2))

theorem d1 : W1 m ρ c (Proc.devRef .tc main_v32) = d2 m c := ops0_v32 _
theorem d6 : W6 m ρ c (Proc.devRef .tc main_v32) = d2 m c := by
  simp (disch := decide +kernel) only [StableHlo.after_of_forall_not_mem, W0_eq, R4, R6]
  rw [I2]; exact d1 m ρ c
theorem d11 : W11 m ρ c (Proc.devRef .tc main_v32) = d2 m c := by
  simp (disch := decide +kernel) only [StableHlo.after_of_forall_not_mem, W0_eq, R9, R11]
  rw [I7]; exact d6 m ρ c

theorem e33_0 : W2 m ρ c (Proc.devRef .tc main_v33_0) = linH (A0 m c) (A4 m c) :=
  (W2_arr m ρ c 3).trans ((RegLin0.h_eq (V1 m ρ) c).trans (by simp (disch := decide +kernel) only [StableHlo.after_of_forall_not_mem, W0_eq, V1] <;> rfl))
theorem e33_1 : W2 m ρ c (Proc.devRef .tc main_v33_1) = linSelf (A0 m c) (A4 m c) (d2 m c) :=
  (W2_arr m ρ c 4).trans ((RegLin0.self_eq (V1 m ρ) c).trans (by simp (disch := decide +kernel) only [StableHlo.after_of_forall_not_mem, W0_eq, V1, ↓ops0_v32 (W0 m ρ c)] <;> rfl))
theorem x1 : xmid (V3 m ρ c main_v47) (V3 m ρ c main_v33_1) (V3 m ρ c main_v48) = p1 m c := by
  simp (disch := decide +kernel) only [StableHlo.after_of_forall_not_mem, W0_eq, V3, R2, ↓ops1_v47 (W2 m ρ c), ↓ops1_v48 (W2 m ρ c), ↓ops0_v1 (W0 m ρ c), ↓ops0_v3 (W0 m ρ c), ↓ops0_v30 (W0 m ρ c)]
  rw [e33_0, e33_1] <;> rfl
theorem e49_0 : W4 m ρ c (Proc.devRef .tc main_v49_0) = p1 m c :=
  (W4_arr m ρ c 3).trans ((RegStats1.xmid_eq (V3 m ρ) c).trans (x1 m ρ c))
theorem e49_1 : W4 m ρ c (Proc.devRef .tc main_v49_1) = colSum (p1 m c) :=
  (W4_arr m ρ c 4).trans ((RegStats1.sum_eq (V3 m ρ) c).trans (congrArg colSum (x1 m ρ c)))
theorem e49_2 : W4 m ρ c (Proc.devRef .tc main_v49_2) = colSumSq (p1 m c) :=
  (W4_arr m ρ c 5).trans ((RegStats1.sumsq_eq (V3 m ρ) c).trans (congrArg colSumSq (x1 m ρ c)))
theorem e61 : W6 m ρ c (Proc.devRef .tc main_v61) = h1 m c :=
  (W6_arr m ρ c 5).trans ((RegApply2.out_eq (V5 m ρ) c).trans (by
    simp (disch := decide +kernel) only [StableHlo.after_of_forall_not_mem, W0_eq, V5, R2, R4, ↓ops2_v51 (W4 m ρ c), ↓ops2_v58 (W4 m ρ c), ↓ops2_v59 (W4 m ρ c), ↓ops2_v60 (W4 m ρ c)]
    rw [e49_0, e49_1, e49_2] <;> rfl))

theorem e62_0 : W7 m ρ c (Proc.devRef .tc main_v62_0) = linH (h1 m c) (A8 m c) :=
  (W7_arr m ρ c 3).trans ((RegLin3.h_eq (V6 m ρ) c).trans (by simp (disch := decide +kernel) only [StableHlo.after_of_forall_not_mem, W0_eq, V6, R2, R4, R6]; rw [e61] <;> rfl))
theorem e62_1 : W7 m ρ c (Proc.devRef .tc main_v62_1) = linSelf (h1 m c) (A8 m c) (d2 m c) :=
  (W7_arr m ρ c 4).trans ((RegLin3.self_eq (V6 m ρ) c).trans (by rw [show V6 m ρ c main_v32 = _ from d6 m ρ c]; simp (disch := decide +kernel) only [StableHlo.after_of_forall_not_mem, W0_eq, V6, R2, R4, R6]; rw [e61] <;> rfl))
theorem x4 : xmid (V8 m ρ c main_v76) (V8 m ρ c main_v62_1) (V8 m ρ c main_v77) = p2 m c := by
  simp (disch := decide +kernel) only [StableHlo.after_of_forall_not_mem, W0_eq, V8, R2, R4, R6, R7, ↓ops4_v76 (W7 m ρ c), ↓ops4_v77 (W7 m ρ c), ↓ops0_v1 (W0 m ρ c), ↓ops0_v3 (W0 m ρ c), ↓ops0_v30 (W0 m ρ c)]
  rw [e62_0, e62_1] <;> rfl
theorem e78_0 : W9 m ρ c (Proc.devRef .tc main_v78_0) = p2 m c :=
  (W9_arr m ρ c 3).trans ((RegStats4.xmid_eq (V8 m ρ) c).trans (x4 m ρ c))
theorem e78_1 : W9 m ρ c (Proc.devRef .tc main_v78_1) = colSum (p2 m c) :=
  (W9_arr m ρ c 4).trans ((RegStats4.sum_eq (V8 m ρ) c).trans (congrArg colSum (x4 m ρ c)))
theorem e78_2 : W9 m ρ c (Proc.devRef .tc main_v78_2) = colSumSq (p2 m c) :=
  (W9_arr m ρ c 5).trans ((RegStats4.sumsq_eq (V8 m ρ) c).trans (congrArg colSumSq (x4 m ρ c)))
theorem e90 : W11 m ρ c (Proc.devRef .tc main_v90) = h2 m c :=
  (W11_arr m ρ c 5).trans ((RegApply5.out_eq (V10 m ρ) c).trans (by
    simp (disch := decide +kernel) only [StableHlo.after_of_forall_not_mem, W0_eq, V10, R2, R4, R6, R7, R9, ↓ops5_v80 (W9 m ρ c), ↓ops5_v87 (W9 m ρ c), ↓ops5_v88 (W9 m ρ c), ↓ops5_v89 (W9 m ρ c)]
    rw [e78_0, e78_1, e78_2] <;> rfl))

theorem e91_0 : W12 m ρ c (Proc.devRef .tc main_v91_0) = linH (h2 m c) (A12 m c) :=
  (W12_arr m ρ c 3).trans ((RegLin6.h_eq (V11 m ρ) c).trans (by simp (disch := decide +kernel) only [StableHlo.after_of_forall_not_mem, W0_eq, V11, R2, R4, R6, R7, R9, R11]; rw [e90] <;> rfl))
theorem e91_1 : W12 m ρ c (Proc.devRef .tc main_v91_1) = linSelf (h2 m c) (A12 m c) (d2 m c) :=
  (W12_arr m ρ c 4).trans ((RegLin6.self_eq (V11 m ρ) c).trans (by rw [show V11 m ρ c main_v32 = _ from d11 m ρ c]; simp (disch := decide +kernel) only [StableHlo.after_of_forall_not_mem, W0_eq, V11, R2, R4, R6, R7, R9, R11]; rw [e90] <;> rfl))
theorem x7 : xmid (V13 m ρ c main_v105) (V13 m ρ c main_v91_1) (V13 m ρ c main_v106) = p3 m c := by
  simp (disch := decide +kernel) only [StableHlo.after_of_forall_not_mem, W0_eq, V13, R2, R4, R6, R7, R9, R11, R12, ↓ops7_v105 (W12 m ρ c), ↓ops7_v106 (W12 m ρ c), ↓ops0_v1 (W0 m ρ c), ↓ops0_v3 (W0 m ρ c), ↓ops0_v30 (W0 m ρ c)]
  rw [e91_0, e91_1] <;> rfl
theorem e107_0 : W14 m ρ c (Proc.devRef .tc main_v107_0) = p3 m c :=
  (W14_arr m ρ c 3).trans ((RegStats7.xmid_eq (V13 m ρ) c).trans (x7 m ρ c))
theorem e107_1 : W14 m ρ c (Proc.devRef .tc main_v107_1) = colSum (p3 m c) :=
  (W14_arr m ρ c 4).trans ((RegStats7.sum_eq (V13 m ρ) c).trans (congrArg colSum (x7 m ρ c)))
theorem e107_2 : W14 m ρ c (Proc.devRef .tc main_v107_2) = colSumSq (p3 m c) :=
  (W14_arr m ρ c 5).trans ((RegStats7.sumsq_eq (V13 m ρ) c).trans (congrArg colSumSq (x7 m ρ c)))
theorem e119 : W16 m ρ c (Proc.devRef .tc main_v119) = h3 m c :=
  (W16_arr m ρ c 5).trans ((RegApply8.out_eq (V15 m ρ) c).trans (by
    simp (disch := decide +kernel) only [StableHlo.after_of_forall_not_mem, W0_eq, V15, R2, R4, R6, R7, R9, R11, R12, R14, ↓ops8_v109 (W14 m ρ c), ↓ops8_v116 (W14 m ρ c), ↓ops8_v117 (W14 m ρ c), ↓ops8_v118 (W14 m ρ c)]
    rw [e107_0, e107_1, e107_2] <;> rfl))

theorem ops9_v123 (V : Valuation τ sig (Elt Ideal)) :
    StableHlo.after hostOps9 V (Proc.devRef .tc main_v123) = segOf (V (Proc.devRef .tc main_arg3)) := by
  after_results
  rfl
theorem ops9_v124 (V : Valuation τ sig (Elt Ideal)) :
    StableHlo.after hostOps9 V (Proc.devRef .tc main_v124) = shapeCast SC (segOf (V (Proc.devRef .tc main_arg3))) (by decide) := by
  after_results
  rfl
theorem ops10_v134 (V : Valuation τ sig (Elt Ideal)) :
    StableHlo.after hostOps10 V (Proc.devRef .tc main_v134) = cntDiv (V (Proc.devRef .tc main_v125)) (V (Proc.devRef .tc main_v123)) := by
  after_results
  rfl
theorem e125 : W18 m ρ c (Proc.devRef .tc main_v125) = poolSum (h3 m c) (shapeCast SC (segOf (m ((c : Thread nD τ).loc main_arg3))) (by decide)) :=
  (W18_arr m ρ c 2).trans ((RegPool9.pool_eq (V17 m ρ) c).trans (by
    simp (disch := decide +kernel) only [StableHlo.after_of_forall_not_mem, W0_eq, V17, R2, R4, R6, R7, R9, R11, R12, R14, R16, ↓ops9_v124 (W16 m ρ c)]
    rw [e119] <;> rfl))

/-- The kernel program's result buffer at the end of the run is the kernel's function of the argument arrays. -/
theorem result_eq : W19 m ρ c (Proc.devRef .tc main_v134)
    = kFinal (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15)) := by
  simp (disch := decide +kernel) only [StableHlo.after_of_forall_not_mem, W0_eq, R2, R4, R6, R7, R9, R11, R12, R14, R16, R18, ↓ops10_v134 (W18 m ρ c), ↓ops9_v123 (W16 m ρ c)]
  rw [e125] <;> rfl

end Cert.KernelIdeal.KChain

end
-- ==== Proof.Real.lean ====
/-
  Arrays of extended reals all of whose entries are real numbers; sums, differences, products, maxima and finite
  sums of reals are reals.
-/
import proofs.«428539_j48352741818636_1_alg».proof.Proof.Spec

noncomputable section

namespace Cert.GCN

open Idealize.ShloMosaic Idealize.ShloMosaic.ValueIdx

/-- Every entry is a real number. -/
def IsReal {S : Shape} (v : S.Idx → EReal) : Prop := ∀ i, ∃ r : ℝ, v i = (r : EReal)

variable {a b : EReal} (ha : ∃ r : ℝ, a = (r : EReal)) (hb : ∃ r : ℝ, b = (r : EReal))
include ha hb

theorem real_add : ∃ r : ℝ, a + b = (r : EReal) := by
  obtain ⟨⟨r, rfl⟩, ⟨s, rfl⟩⟩ := ha, hb
  exact ⟨r + s, rfl⟩

theorem real_sub : ∃ r : ℝ, a - b = (r : EReal) := by
  obtain ⟨⟨r, rfl⟩, ⟨s, rfl⟩⟩ := ha, hb
  exact ⟨r - s, rfl⟩

theorem real_mul : ∃ r : ℝ, a * b = (r : EReal) := by
  obtain ⟨⟨r, rfl⟩, ⟨s, rfl⟩⟩ := ha, hb
  exact ⟨r * s, rfl⟩

theorem real_max : ∃ r : ℝ, max a b = (r : EReal) := by
  rcases max_choice a b with h | h <;> rw [h] <;> assumption

omit ha hb

theorem real_zero : ∃ r : ℝ, (0 : EReal) = (r : EReal) := ⟨0, rfl⟩

theorem real_sum {ι : Type*} (s : Finset ι) (f : ι → EReal) (h : ∀ i ∈ s, ∃ r : ℝ, f i = (r : EReal)) :
    ∃ r : ℝ, ∑ i ∈ s, f i = (r : EReal) :=
  Finset.sum_induction f (fun x => ∃ r : ℝ, x = (r : EReal)) (fun _ _ => real_add) real_zero h

end Cert.GCN

end
-- ==== Proof.PreFacts.lean ====
/- What the precondition gives: every entry of the float arguments the programs read is a real number, and every edge's
   target word is a node number. -/
import proofs.«428539_j48352741818636_1_alg».proof.Pre_finite_inputs
import proofs.«428539_j48352741818636_1_alg».proof.Proof.Gen.Pre_finite_inputs
import proofs.«428539_j48352741818636_1_alg».proof.Proof.Whole
import proofs.«428539_j48352741818636_1_alg».proof.Proof.Real
import Idealize.ShloMosaic.Lib.ReduceAll
import Idealize.ShloMosaic.Lib.StableHlo.Predicate

noncomputable section

namespace Cert.PreFacts

open Idealize.ShloMosaic Idealize.ShloMosaic.ValueIdx Cert.GCN Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_top (a : EReal) (h : max a (-a) < ⊤) : ∃ r : ℝ, a = (r : EReal) := by
  induction a using EReal.rec with
  | bot => simp at h
  | coe r => exact ⟨r, rfl⟩
  | top => simp at h

theorem isReal_of_all {S : Shape} {axes : List (Fin S.rank)} (x : FVec Ideal S .f32)
    (hb : S_.BroadcastsInDim S (![] : Fin 0 → Fin S.rank)) (hr : S.ReducesTo axes S_) (hS : 0 < S_.numel)
    (h : Host.reduce IntOp.andi (cmpf .olt (Host.absf x) (broadcastInDim S ![] hb (constant S_ .f32 0x7F800000#32)))
      (constantI S_ 1 1#1) hr hS ix0 = 1#1) : IsReal x := by
  intro i
  have e := Host.reduce_andi_all _ _ hr hS ix0 h i
  have e' : BitVec.ofBool (decide (max (x i) (-(x i)) < Ideal.ofBits .f32 0x7F800000#32)) = 1#1 := e
  rw [inf_bits, StableHlo.Predicate.ofBool_eq_one_iff, decide_eq_true_eq] at e'
  exact real_of_abs_lt_top _ e'

theorem andi_ix0 {x y : IVec S_ 1} (h : andi x y ix0 = 1#1) : x ix0 = 1#1 ∧ y ix0 = 1#1 :=
  IntOp.andi_eq_one.1 h

theorem dst_nonneg (a1 : IVec S2x600000 32) (u : IVec S600000 1)
    (hr : S600000.ReducesTo [0] S_) (hS : 0 < S_.numel) (hb : S_.BroadcastsInDim S600000 (![] : Fin 0 → Fin S600000.rank))
    (h : Host.reduce IntOp.andi
      (andi (cmpi .sge (Cert.GCN.dstOf a1) (broadcastInDim S600000 ![] hb (constantI S_ 32 0#32))) u)
      (constantI S_ 1 1#1) hr hS ix0 = 1#1) (e : S600000.Idx) : 0 ≤ (Cert.GCN.dstOf a1 e).toInt := by
  have he := Host.reduce_andi_all _ _ hr hS ix0 h e
  have h1 : (0#32 : BitVec 32).toInt ≤ (Cert.GCN.dstOf a1 e).toInt := IntOp.cmpi_sge.1 (IntOp.andi_eq_one.1 he).1
  have z : (0#32 : BitVec 32).toInt = 0 := by decide
  rw [z] at h1
  exact h1

theorem of_pre (a0 : FVec Ideal S50000x128 .f32) (a1 : IVec S2x600000 32) (a2 : FVec Ideal S600000x4 .f32)
    (a3 : IVec S50000 32) (a4 : FVec Ideal S128x128 .f32) (a5 a6 a7 : FVec Ideal S128 .f32)
    (a8 : FVec Ideal S128x128 .f32) (a9 a10 a11 : FVec Ideal S128 .f32) (a12 : FVec Ideal S128x128 .f32)
    (a13 a14 a15 : FVec Ideal S128 .f32)
    (h : Cert.Pre_finite_inputs.fn (F := Ideal) a0 a1 a2 a3 a4 a5 a6 a7 a8 a9 a10 a11 a12 a13 a14 a15 = fun _ => 1#1) :
    IsReal a0 ∧ IsReal a4 ∧ IsReal a5 ∧ IsReal a6 ∧ IsReal a7 ∧ IsReal a8 ∧ IsReal a9 ∧ IsReal a10 ∧ IsReal a11
      ∧ IsReal a12 ∧ IsReal a13 ∧ IsReal a14 ∧ IsReal a15 ∧ (∀ e, 0 ≤ (Cert.GCN.dstOf a1 e).toInt) := by
  have h0 := congrFun h ix0
  dsimp only [fn, fn_part1, fn_part2, fn_part3, fn_part4] at h0
  obtain ⟨h0, hd⟩ := andi_ix0 h0
  obtain ⟨h0, h15⟩ := andi_ix0 h0
  obtain ⟨h0, h14⟩ := andi_ix0 h0
  obtain ⟨h0, h13⟩ := andi_ix0 h0
  obtain ⟨h0, h12⟩ := andi_ix0 h0
  obtain ⟨h0, h11⟩ := andi_ix0 h0
  obtain ⟨h0, h10⟩ := andi_ix0 h0
  obtain ⟨h0, h9⟩ := andi_ix0 h0
  obtain ⟨h0, h8⟩ := andi_ix0 h0
  obtain ⟨h0, h7⟩ := andi_ix0 h0
  obtain ⟨h0, h6⟩ := andi_ix0 h0
  obtain ⟨h0, h5⟩ := andi_ix0 h0
  obtain ⟨h0, h4⟩ := andi_ix0 h0
  obtain ⟨h0, h2⟩ := andi_ix0 h0
  exact ⟨isReal_of_all a0 _ _ _ h0, isReal_of_all a4 _ _ _ h4, isReal_of_all a5 _ _ _ h5, isReal_of_all a6 _ _ _ h6,
    isReal_of_all a7 _ _ _ h7, isReal_of_all a8 _ _ _ h8, isReal_of_all a9 _ _ _ h9, isReal_of_all a10 _ _ _ h10,
    isReal_of_all a11 _ _ _ h11, isReal_of_all a12 _ _ _ h12, isReal_of_all a13 _ _ _ h13, isReal_of_all a14 _ _ _ h14,
    isReal_of_all a15 _ _ _ h15, fun e => dst_nonneg a1 _ _ _ _ hd e⟩

end Cert.PreFacts

end
-- ==== Proof.SimPre.lean ====
/-
  One layer before normalisation: the two programs' arrays agree where no target word is negative, and are arrays of
  real numbers when the arguments are. They differ only in how a vector is laid over the matrix.
-/
import Idealize.ShloMosaic.Lib.IdealHost
import Idealize.ShloMosaic.Lib.StackMember
import Idealize.ShloMosaic.Lib.ValueLayout
import proofs.«428539_j48352741818636_1_alg».proof.Proof.Whole
import proofs.«428539_j48352741818636_1_alg».proof.Proof.Real
import proofs.«428539_j48352741818636_1_alg».proof.Proof.LibMatRead

noncomputable section

open scoped BigOperators

namespace Cert.GCN.SimPre

open Idealize.ShloMosaic Idealize.ShloMosaic.ValueIdx Cert.GCN

theorem dot_eq (x : FVec Ideal SN .f32) (w : FVec Ideal SW .f32) : Host.dotGeneral dotD none x w = linH x w := by
  funext i
  obtain ⟨a, b, rfl⟩ : ∃ (a : Fin 50000) (b : Fin 128), i = ix2 a b := ⟨i 0, i 1, eq_ix2 i⟩
  exact StackMember.dotGeneral_plain_apply none x w a b

/-- Where no word is negative the index normalisation is the identity. -/
theorem normIdx_of_nonneg (v : IVec SE 32) (h : ∀ e, 0 ≤ (v e).toInt) : normIdx v = v := by
  funext e
  unfold normIdx
  have : cmpi .slt v (broadcastInDim SE ![] (by decide) (constantI S0 32 0#32)) e = 0#1 := by
    show IntOp.cmpi .slt (v e) 0#32 = 0#1
    unfold IntOp.cmpi
    have : (v e).slt 0#32 = false := by
      rw [BitVec.slt]
      simpa using h e
    simp only [this]
    rfl
  rw [select_apply, this, select_zero]

theorem nodeOver_apply (v : FVec Ideal SV .f32) (n : Fin 50000) (d : Fin 128) : nodeOver v (ix2 n d) = v (ix1 n) :=
  (Cert.MatRead.broadcastInDim_oneCol_apply _ _ n d).trans (Cert.MatRead.broadcastInDim_vec_col_apply _ v n 0)

theorem chanRow_apply (b : FVec Ideal SCh .f32) (d : Fin 128) : chanRow b (ix2 0 d) = b (ix1 d) :=
  shapeCast_a_1a_apply b _ 0 d

theorem overNodes_chanRowB_apply (b : FVec Ideal SCh .f32) (n : Fin 50000) (d : Fin 128) :
    overNodes (chanRowB b) (ix2 n d) = b (ix1 d) :=
  (broadcastInDim_oneRow_apply _ _ n d).trans (Cert.MatRead.broadcastInDim_vec_row_apply _ b 0 d)

theorem pre_eq (x : FVec Ideal SN .f32) (w : FVec Ideal SW .f32) (b : FVec Ideal SCh .f32) (dinv : FVec Ideal SV .f32)
    (src dst : IVec SE 32) (hdst : ∀ e, 0 ≤ (dst e).toInt) :
    kPre x w b dinv src dst = rPre x w b dinv src dst := by
  funext i
  obtain ⟨n, d, rfl⟩ : ∃ (n : Fin 50000) (d : Fin 128), i = ix2 n d := ⟨i 0, i 1, eq_ix2 i⟩
  unfold kPre rPre xmid linSelf
  rw [addf_apply, addf_apply, mulf_apply, dot_eq, normIdx_of_nonneg dst hdst, nodeOver_apply,
    overNodes_chanRowB_apply]
  show _ + linH x w (ix2 n d) * nodeCol (mulf dinv dinv) (ix2 n 0) + chanRow b (ix2 0 d) = _
  rw [chanRow_apply]
  exact congrArg (_ + linH x w (ix2 n d) * · + _) (Cert.MatRead.shapeCast_vec_col_apply _ _ n 0)

theorem splat_apply (S : Shape) (h : S0.BroadcastsInDim S (![] : Fin 0 → Fin S.rank)) (w : BitVec 32) (j : S.Idx) :
    splat S h w j = Ideal.ofBits .f32 w := rfl

/-- A property of extended reals that 0 has and sums keep holds of every entry of a scatter-add of such entries. -/
theorem scatterAdd_of {P : EReal → Prop} (h0 : P 0) (hadd : ∀ a b, P a → P b → P (a + b)) {s si u : Shape} {w : Nat}
    (d : ScatterDims s si u) (x : FVec Ideal s .f32) (idx : IVec si w) (upd : FVec Ideal u .f32) (hx : ∀ i, P (x i))
    (hu : ∀ j, P (upd j)) (i : s.Idx) : P (Host.scatterAdd d x idx upd i) :=
  hadd _ _ (hx i) (Finset.sum_induction _ P hadd h0 fun j _ => hu j)

theorem isReal_mulf {S : Shape} (a b : FVec Ideal S .f32) (ha : IsReal a) (hb : IsReal b) : IsReal (mulf a b) :=
  fun i => real_mul (ha i) (hb i)

theorem pre_real (x : FVec Ideal SN .f32) (w : FVec Ideal SW .f32) (b : FVec Ideal SCh .f32) (dinv : FVec Ideal SV .f32)
    (src dst : IVec SE 32) (hx : IsReal x) (hw : IsReal w) (hb : IsReal b) (hd : IsReal dinv) :
    IsReal (rPre x w b dinv src dst) := by
  have hH : IsReal (Host.dotGeneral dotD none x w) := by
    rw [dot_eq]
    exact fun _ => real_sum _ _ fun _ _ => real_mul (hx _) (hw _)
  have hdd : IsReal (mulf dinv dinv) := isReal_mulf _ _ hd hd
  intro i
  unfold rPre
  rw [addf_apply, addf_apply, mulf_apply]
  refine real_add (real_add ?_ (real_mul (hH i) (hdd _))) (hb _)
  exact scatterAdd_of (P := fun a => ∃ r : ℝ, a = (r : EReal)) real_zero (fun _ _ => real_add) rowD _ _ _
    (fun _ => ⟨0, Ideal.ofBits_zero_f32⟩) (isReal_mulf _ _ (fun _ => hH _) fun _ => real_mul (hd _) (hd _)) i

/-- One plus a count of edges is a real at least one, so its inverse square root is a real. -/
theorem degInv_real (dst : IVec SE 32) : IsReal (degInv dst) := by
  intro i
  obtain ⟨r, hr, hc⟩ := scatterAdd_of (P := fun a => ∃ r : ℝ, 0 ≤ r ∧ a = (r : EReal)) ⟨0, le_rfl, rfl⟩
    (by rintro _ _ ⟨r, hr, rfl⟩ ⟨s, hs, rfl⟩; exact ⟨r + s, add_nonneg hr hs, rfl⟩) vecD
    (splat SV (by decide) 0x00000000#32) (colIdx (normIdx dst)) (splat SE (by decide) 0x3F800000#32)
    (fun _ => ⟨0, le_rfl, Ideal.ofBits_zero_f32⟩) (fun _ => ⟨1, zero_le_one, Ideal.ofBits_one_f32⟩) i
  unfold degInv
  rw [show ∀ v : FVec Ideal SV .f32, Host.rsqrt v i = Ideal.rsqrt (v i) from fun _ => rfl, addf_apply, hc, splat_apply,
    Ideal.ofBits_one_f32, ← EReal.coe_one, ← EReal.coe_add, Ideal.rsqrt_coe, if_neg (by linarith), if_neg (by positivity)]
  exact ⟨_, rfl⟩

end Cert.GCN.SimPre

end
-- ==== Proof.SimNorm.lean ====
/-
  The normalisation over the nodes, per channel, of real features: the mean of the squares less the squared mean is
  the mean squared deviation, not negative, so the two normalisations agree and stay real.
-/
import Mathlib.Tactic.Ring
import Mathlib.Tactic.FieldSimp
import Mathlib.Tactic.Positivity
import Mathlib.Tactic.NormNum
import proofs.«428539_j48352741818636_1_alg».proof.Proof.SimPre

noncomputable section

open scoped BigOperators

namespace Cert.GCN.SimNorm

open Idealize.ShloMosaic Idealize.ShloMosaic.ValueIdx Cert.GCN Cert.GCN.SimPre

theorem ofBits_N : Ideal.ofBits .f32 0x47435000#32 = ((50000 : ℝ) : EReal) := by
  simp [Ideal.ofBits, Ideal.ieee, -EReal.coe_mul] <;> norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul] <;> norm_num

theorem coe_sum {ι : Type} (s : Finset ι) (f : ι → ℝ) :
    ((∑ i ∈ s, f i : ℝ) : EReal) = ∑ i ∈ s, (f i : EReal) :=
  map_sum (⟨⟨Real.toEReal, rfl⟩, EReal.coe_add⟩ : ℝ →+ EReal) f s

/-- The mean squared deviation from the mean is the mean of the squares less the squared mean. -/
theorem real_var {ι : Type} (s : Finset ι) (r : ι → ℝ) (N : ℝ) (hN : N ≠ 0) (hc : (s.card : ℝ) = N) :
    (∑ n ∈ s, (r n - (∑ k ∈ s, r k) * (1 / N)) * (r n - (∑ k ∈ s, r k) * (1 / N))) * (1 / N)
      = (∑ n ∈ s, r n * r n) * (1 / N) - ((∑ k ∈ s, r k) * (1 / N)) * ((∑ k ∈ s, r k) * (1 / N)) := by
  set S := ∑ k ∈ s, r k with hS
  set m := S * (1 / N) with hm
  have h : ∀ n, (r n - m) * (r n - m) = r n * r n - 2 * m * r n + m * m := by intro n; ring
  simp_rw [h, Finset.sum_add_distrib, Finset.sum_sub_distrib, ← Finset.mul_sum, Finset.sum_const, nsmul_eq_mul, hc, ← hS]
  rw [hm]; field_simp; ring

theorem over_apply (v : FVec Ideal SR .f32) (n : Fin 50000) (d : Fin 128) :
    overNodes v (ix2 n d) = v (ix2 (0 : Fin 1) d) :=
  Idealize.ShloMosaic.broadcastInDim_oneRow_apply _ v n d

/-- The host's sum over the nodes from zero, at channel d, is the sum of the column. -/
theorem reduce_apply (x : FVec Ideal SN .f32) (h' : SN.ReducesTo [0] SCh) (hu : 0 < S0.numel) (d : Fin 128) :
    Host.reduceAdd x (constant (F := Ideal) S0 .f32 0x00000000#32) h' hu (ix1 d) = ∑ n : Fin 50000, x (ix2 n d) := by
  have h : SN.Reduces [0] SCh := by decide
  rw [hostReduceAdd_apply, Ideal.hostReduceAdd_single h' h, constant_apply, Ideal.ofBits_zero_f32, zero_add]
  refine Finset.sum_congr rfl fun k _ => congrArg x (funext fun a => ?_)
  match a with
  | ⟨0, _⟩ => exact Fin.ext rfl
  | ⟨1, _⟩ => exact Fin.ext rfl

theorem dof_val :
    (subf (constant (F := Ideal) S0 .f32 0x47435000#32) (sitofp .f32 (constantI S0 32 0#32)) : FVec Ideal S0 .f32) ix0
      = ((50000 : ℝ) : EReal) := by
  rw [subf_apply, constant_apply, ofBits_N]
  show ((50000 : ℝ) : EReal) - ((((0#32 : BitVec 32).toInt : ℤ) : ℝ) : EReal) = _
  rw [show (0#32 : BitVec 32).toInt = 0 by decide, Int.cast_zero, EReal.coe_zero, sub_zero]

theorem cmp_pos : Ideal.cmp .ogt ((50000 : ℝ) : EReal) 0 = 1#1 := by
  have h : (0 : EReal) < ((50000 : ℝ) : EReal) := EReal.coe_pos.mpr (by norm_num)
  simp only [Ideal.cmp]
  rw [decide_eq_true h]
  rfl

/-- A real sum divided by the number of nodes. -/
theorem div_N {s : EReal} {q : ℝ} (hs : s = (q : EReal)) :
    Ideal.div s (Ideal.ofBits .f32 0x47435000#32) = ((q * (1 / 50000) : ℝ) : EReal) := by
  rw [ofBits_N, Ideal.div_coe (by norm_num), hs, ← EReal.coe_mul]

section Values
variable (x1 : FVec Ideal SN .f32) (r : SN.Idx → ℝ) (hr : ∀ i, x1 i = (r i : EReal))

/-- Channel d's mean. -/
def mu (d : Fin 128) : ℝ := (∑ n : Fin 50000, r (ix2 n d)) * (1 / 50000)

include hr

theorem sum_val (d : Fin 128) : (∑ n : Fin 50000, x1 (ix2 n d)) = ((∑ n : Fin 50000, r (ix2 n d) : ℝ) : EReal) := by
  rw [coe_sum]; exact Finset.sum_congr rfl fun n _ => hr _

theorem rMean_val (d : Fin 128) : rMean x1 (ix1 d) = ((mu r d : ℝ) : EReal) := by
  unfold rMean
  rw [hostDivf_apply, reduce_apply, splat_apply]
  exact div_N (sum_val x1 r hr d)

theorem kMean_val (d : Fin 128) : kMean (colSum x1) (ix2 (0 : Fin 1) d) = ((mu r d : ℝ) : EReal) := by
  unfold kMean
  rw [hostDivf_apply, splat_apply]
  exact div_N (sum_val x1 r hr d)

/-- The reference's variance at channel d: the mean squared deviation. -/
theorem rVar_val (d : Fin 128) :
    rVar x1 (ix1 d)
      = (((∑ n : Fin 50000, (r (ix2 n d) - mu r d) * (r (ix2 n d) - mu r d)) * (1 / 50000) : ℝ) : EReal) := by
  have dev : ∀ (h' : SN.ReducesTo [0] SCh) (hu : 0 < S0.numel) (hs : S0.BroadcastsInDim SR (![] : Fin 0 → Fin SR.rank))
      (n : Fin 50000),
      subf x1 (overNodes (Host.divf (chanRowB (Host.reduceAdd x1 (constant (F := Ideal) S0 .f32 0x00000000#32) h' hu))
        (splat SR hs 0x47435000#32))) (ix2 n d) = ((r (ix2 n d) - mu r d : ℝ) : EReal) := fun h' hu hs n => by
    rw [subf_apply, over_apply, hostDivf_apply, splat_apply, hr, EReal.coe_sub]
    refine congrArg (_ - ·) (div_N ?_)
    exact (Cert.MatRead.broadcastInDim_vec_row_apply _ _ 0 d).trans ((reduce_apply x1 h' hu d).trans (sum_val x1 r hr d))
  dsimp only [rVar]
  rw [select_apply, broadcastInDim_scalar_apply, cmpf_apply, Ideal.cmpf_def, dof_val, constant_apply,
    Ideal.ofBits_zero_f32, cmp_pos, select_one, hostDivf_apply, reduce_apply, broadcastInDim_scalar_apply, dof_val,
    Ideal.div_coe (by norm_num)]
  rw [Finset.sum_congr rfl fun n _ => by rw [mulf_apply, dev, ← EReal.coe_mul], ← coe_sum, ← EReal.coe_mul]

/-- The kernel's variance at channel d: the mean of the squares less the squared mean. -/
theorem kVar_val (d : Fin 128) :
    kVar (colSum x1) (colSumSq x1) (ix2 (0 : Fin 1) d)
      = (((∑ n : Fin 50000, r (ix2 n d) * r (ix2 n d)) * (1 / 50000) - mu r d * mu r d : ℝ) : EReal) := by
  unfold kVar
  rw [subf_apply, mulf_apply, kMean_val x1 r hr, hostDivf_apply, splat_apply, EReal.coe_sub, EReal.coe_mul]
  refine congrArg (· - _) (div_N ?_)
  show (∑ n : Fin 50000, x1 (ix2 n d) * x1 (ix2 n d)) = _
  rw [coe_sum]; exact Finset.sum_congr rfl fun n _ => by rw [hr, EReal.coe_mul]

theorem var_eq (d : Fin 128) : kVar (colSum x1) (colSumSq x1) (ix2 (0 : Fin 1) d) = rVar x1 (ix1 d) := by
  rw [kVar_val x1 r hr, rVar_val x1 r hr]
  exact congrArg _ (real_var Finset.univ (fun n => r (ix2 n d)) 50000 (by norm_num) (by simp)).symm

end Values

theorem rNorm_apply (x1 : FVec Ideal SN .f32) (g be : FVec Ideal SCh .f32) (n : Fin 50000) (d : Fin 128) :
    rNorm x1 g be (ix2 n d)
      = ((x1 (ix2 n d) - rMean x1 (ix1 d)) * Ideal.rsqrt (rVar x1 (ix1 d) + Ideal.ofBits .f32 0x3727C5AC#32))
        * g (ix1 d) + be (ix1 d) := by
  unfold rNorm
  rw [addf_apply, mulf_apply, mulf_apply, subf_apply, overNodes_chanRowB_apply, overNodes_chanRowB_apply,
    overNodes_chanRowB_apply, overNodes_chanRowB_apply]
  rfl

/-- On real features the kernel's normalisation, scale and shift is the reference's. -/
theorem norm_eq (x1 : FVec Ideal SN .f32) (g be : FVec Ideal SCh .f32) (hx : IsReal x1) :
    kNorm x1 g be = rNorm x1 g be := by
  choose r hr using hx
  funext i
  obtain ⟨n, d, rfl⟩ : ∃ (n : Fin 50000) (d : Fin 128), i = ix2 n d := ⟨i 0, i 1, eq_ix2 i⟩
  show ((x1 (ix2 n d) - kMean (colSum x1) (ix2 (0 : Fin 1) d))
      * Ideal.rsqrt (kVar (colSum x1) (colSumSq x1) (ix2 (0 : Fin 1) d) + Ideal.ofBits .f32 0x3727C5AC#32))
    * chanRow g (ix2 (0 : Fin 1) d) + chanRow be (ix2 (0 : Fin 1) d) = _
  rw [chanRow_apply, chanRow_apply, rNorm_apply, var_eq x1 r hr, kMean_val x1 r hr, rMean_val x1 r hr]

theorem normRelu_eq (x1 : FVec Ideal SN .f32) (g be : FVec Ideal SCh .f32) (hx : IsReal x1) :
    kNormRelu x1 g be = rRelu (rNorm x1 g be) := by
  funext i
  show max (kNorm x1 g be i) 0 = _
  unfold rRelu
  rw [maximumf_apply, splat_apply, Ideal.ofBits_zero_f32, norm_eq x1 g be hx]

theorem relu_real (y : FVec Ideal SN .f32) (hy : IsReal y) : IsReal (rRelu y) := by
  intro i
  unfold rRelu
  rw [maximumf_apply, splat_apply, Ideal.ofBits_zero_f32]
  exact real_max (hy i) real_zero

/-- The variance plus the stabiliser is a positive real, so its inverse square root is a real. -/
theorem norm_real (x1 : FVec Ideal SN .f32) (g be : FVec Ideal SCh .f32) (hx : IsReal x1) (hg : IsReal g) (hbe : IsReal be) :
    IsReal (rNorm x1 g be) := by
  choose r hr using hx
  intro i
  obtain ⟨n, d, rfl⟩ : ∃ (n : Fin 50000) (d : Fin 128), i = ix2 n d := ⟨i 0, i 1, eq_ix2 i⟩
  obtain ⟨e, he, hE⟩ := ofBits_eps
  have hv : 0 ≤ (∑ n : Fin 50000, (r (ix2 n d) - mu r d) * (r (ix2 n d) - mu r d)) * (1 / 50000 : ℝ) :=
    mul_nonneg (Finset.sum_nonneg fun n _ => mul_self_nonneg _) (by norm_num)
  rw [rNorm_apply, rMean_val x1 r hr, rVar_val x1 r hr, hr, hE, ← EReal.coe_add, Ideal.rsqrt_coe,
    if_neg (by linarith), if_neg (by linarith)]
  exact real_add (real_mul (real_mul (real_sub ⟨_, rfl⟩ ⟨_, rfl⟩) ⟨_, rfl⟩) (hg _)) (hbe _)

end Cert.GCN.SimNorm

end
-- ==== Proof.PoolEq.lean ====
/-
  The pooling two ways: group r's sum over the nodes whose group word is r's, and the scatter-add of the node rows
  onto the group rows from zero. A word below 2^31 names a row, read signed, exactly when it is that row's word.
-/
import proofs.«428539_j48352741818636_1_alg».proof.Proof.SimPre
import Idealize.ShloMosaic.Lib.DynamicIndex

noncomputable section

namespace Cert.GCN

open Idealize.ShloMosaic Idealize.ShloMosaic.ValueIdx

theorem word_eq_ofNat_iff (w : BitVec 32) (r : ℕ) (hr : r < 2 ^ 31) : w = BitVec.ofNat 32 r ↔ w.toInt = (r : ℤ) :=
  ⟨fun h => h ▸ toInt_ofNat_of_lt hr, fun h => BitVec.eq_of_toInt_eq (h.trans (toInt_ofNat_of_lt hr).symm)⟩

theorem pool_eq (h : FVec Ideal SN .f32) (seg : IVec SV 32) :
    poolSum h (shapeCast SC seg (by decide)) = rPoolSum h seg := by
  funext j
  obtain ⟨r, b, rfl⟩ : ∃ (r : Fin 256) (b : Fin 128), j = ix2 r b := ⟨j 0, j 1, eq_ix2 j⟩
  unfold rPoolSum poolSum
  rw [Cert.SparseMM.scatterAdd_rows_apply (R := 256) (B := 128) (N := 50000), Finset.sum_filter,
    Cert.MatRead.shapeCast_vec_col_eq_broadcastInDim seg (by decide) (by decide), SimPre.splat_apply,
    Ideal.ofBits_zero_f32, zero_add]
  exact Finset.sum_congr rfl fun n _ => if_congr (word_eq_ofNat_iff _ _ (lt_of_lt_of_le r.isLt (by norm_num))) rfl rfl

end Cert.GCN

end
-- ==== Proof.Sim.lean ====
/-
  The two programs whole are one function of the arguments, where every float argument is real and no target word is
  negative: layer by layer the arrays agree and stay real, and the two poolings are one array.
-/
import proofs.«428539_j48352741818636_1_alg».proof.Proof.SimPre
import proofs.«428539_j48352741818636_1_alg».proof.Proof.SimNorm
import proofs.«428539_j48352741818636_1_alg».proof.Proof.PoolEq

noncomputable section

namespace Cert.GCN

open Idealize.ShloMosaic Idealize.ShloMosaic.ValueIdx

section Layer
variable (x : FVec Ideal SN .f32) (w : FVec Ideal SW .f32) (b g be : FVec Ideal SCh .f32) (dinv : FVec Ideal SV .f32)
  (src dst : IVec SE 32) (hx : IsReal x) (hw : IsReal w) (hb : IsReal b) (hd : IsReal dinv)
  (hdst : ∀ e, 0 ≤ (dst e).toInt)
include hx hw hb hd hdst

/-- One clipped layer: the two programs agree, and the result is real. -/
theorem layer_relu (hg : IsReal g) (hbe : IsReal be) :
    kNormRelu (kPre x w b dinv src dst) g be = rRelu (rNorm (rPre x w b dinv src dst) g be)
      ∧ IsReal (rRelu (rNorm (rPre x w b dinv src dst) g be)) := by
  have r1 := SimPre.pre_real x w b dinv src dst hx hw hb hd
  rw [SimPre.pre_eq x w b dinv src dst hdst]
  exact ⟨SimNorm.normRelu_eq _ g be r1, SimNorm.relu_real _ (SimNorm.norm_real _ g be r1 hg hbe)⟩

/-- The last layer, not clipped. -/
theorem layer_plain : kNorm (kPre x w b dinv src dst) g be = rNorm (rPre x w b dinv src dst) g be := by
  rw [SimPre.pre_eq x w b dinv src dst hdst]
  exact SimNorm.norm_eq _ g be (SimPre.pre_real x w b dinv src dst hx hw hb hd)

end Layer

theorem final_eq (x : FVec Ideal SN .f32) (ei : IVec SEI 32) (batch : IVec SV 32)
    (W1 : FVec Ideal SW .f32) (b1 g1 be1 : FVec Ideal SCh .f32) (Wm : FVec Ideal SW .f32) (bm gm bem : FVec Ideal SCh .f32)
    (W2 : FVec Ideal SW .f32) (b2 g2 be2 : FVec Ideal SCh .f32)
    (hx : IsReal x) (hW1 : IsReal W1) (hb1 : IsReal b1) (hg1 : IsReal g1) (hbe1 : IsReal be1)
    (hWm : IsReal Wm) (hbm : IsReal bm) (hgm : IsReal gm) (hbem : IsReal bem)
    (hW2 : IsReal W2) (hb2 : IsReal b2)
    (hdst : ∀ e, 0 ≤ (dstOf ei e).toInt) :
    kFinal x ei batch W1 b1 g1 be1 Wm bm gm bem W2 b2 g2 be2 = rFinal x ei batch W1 b1 g1 be1 Wm bm gm bem W2 b2 g2 be2 := by
  unfold kFinal rFinal
  dsimp only
  have hd := SimPre.degInv_real (dstOf ei)
  obtain ⟨e1, r1⟩ := layer_relu x W1 b1 g1 be1 _ (srcOf ei) (dstOf ei) hx hW1 hb1 hd hdst hg1 hbe1
  obtain ⟨e2, r2⟩ := layer_relu _ Wm bm gm bem _ (srcOf ei) (dstOf ei) r1 hWm hbm hd hdst hgm hbem
  rw [e1, e2, layer_plain _ W2 b2 g2 be2 _ (srcOf ei) (dstOf ei) r2 hW2 hb2 hd hdst, pool_eq]

end Cert.GCN

end
-- ==== Proof.Claims.lean ====
/- The five claims: the two kernel frames are the generated ones, the reference's frame is its run with the result dropped,
   the fourth claim is trivially true, and on the extended reals both result buffers end at one function of arguments that
   agree, where the float arguments are finite and every edge's target is a node. -/
import proofs.«428539_j48352741818636_1_alg».proof.Defs
import proofs.«428539_j48352741818636_1_alg».proof.Proof.Gen.Kernel.Frame
import proofs.«428539_j48352741818636_1_alg».proof.Proof.Gen.KernelIdeal.Frame
import proofs.«428539_j48352741818636_1_alg».proof.Proof.KRun
import proofs.«428539_j48352741818636_1_alg».proof.Proof.RefRun
import proofs.«428539_j48352741818636_1_alg».proof.Proof.RChain
import proofs.«428539_j48352741818636_1_alg».proof.Proof.KChain
import proofs.«428539_j48352741818636_1_alg».proof.Proof.PreFacts
import proofs.«428539_j48352741818636_1_alg».proof.Proof.Sim

noncomputable section

namespace Cert.Proof.Claims

open Idealize.ShloMosaic Idealize.ShloMosaic.TcCoe Idealize.SL.Sem Cert.ReferenceIdeal

theorem frame_k : Cert.frame_Kernel := fun m ρ _ => Cert.Kernel.Gen.frame m ρ

theorem frame_ki : Cert.frame_KernelIdeal := fun m ρ _ => Cert.KernelIdeal.Gen.frame m ρ

/-- The reference's run: the result buffer at the operations' fold, and every reference of index below 16, the arguments, as it was. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v216) = StableHlo.after RefRun.ops (StableHlo.launchContents m c) (Proc.devRef .tc main_v216)
      ∧ ∀ b : Ref sig .tc, b.idx.val < 16 → r.2.mem ((c.tc : Thread nD τ).loc b) = m ((c.tc : Thread nD τ).loc b) :=
  (θ_run defs _ _).mono (fun _ h c => ⟨h c _, fun b hb => (h c b).trans (RChain.arg_eq_of_low _ b hb)⟩)
    (RefRun.run_main (F := Ideal) m ρ)

theorem frame_ri : Cert.frame_ReferenceIdeal := fun m ρ _ =>
  (θ_run defs _ _).mono (fun _ h c => by
    have k := (h c).2
    exact ⟨k _ (by decide), k _ (by decide), k _ (by decide), k _ (by decide), k _ (by decide), k _ (by decide),
      k _ (by decide), k _ (by decide), k _ (by decide), k _ (by decide), k _ (by decide), k _ (by decide),
      k _ (by decide), k _ (by decide), k _ (by decide), k _ (by decide)⟩) (ref_run m ρ)

theorem preserves : Cert.preserves_Kernel_KernelIdeal := trivial

theorem algebraic : Cert.algebraic_KernelIdeal_ReferenceIdeal := by
  intro m ρ m' ρ' hpre hagree
  refine ⟨fun c => Cert.KernelIdeal.Gen.W19 m ρ c (Proc.devRef .tc Cert.KernelIdeal.main_v134),
    Cert.KernelIdeal.Gen.run_named (F := Ideal) m ρ, ?_⟩
  refine (θ_run defs _ _).mono (fun _ h c => by
    have k := (h c).2
    refine ⟨?_, k _ (by decide), k _ (by decide), k _ (by decide), k _ (by decide), k _ (by decide), k _ (by decide),
      k _ (by decide), k _ (by decide), k _ (by decide), k _ (by decide), k _ (by decide), k _ (by decide),
      k _ (by decide), k _ (by decide), k _ (by decide), k _ (by decide)⟩
    obtain ⟨e0, e1, e2, e3, e4, e5, e6, e7, e8, e9, e10, e11, e12, e13, e14, e15⟩ := hagree c
    obtain ⟨r0, r4, r5, r6, r7, r8, r9, r10, r11, r12, r13, r14, r15, hdst⟩ := Cert.PreFacts.of_pre _ _ _ _ _ _ _ _ _ _ _ _ _ _ _ _ (hpre c)
    rw [(h c).1, RChain.result_eq]
    show _ = Cert.KernelIdeal.Gen.W19 m ρ c (Proc.devRef .tc Cert.KernelIdeal.main_v134)
    rw [Cert.KernelIdeal.KChain.result_eq]
    have L : ∀ b : Ref sig .tc, StableHlo.launchContents m' c (Proc.devRef .tc b) = m' ((c.tc : Thread nD τ).loc b) := fun _ => rfl
    rw [L, L, L, L, L, L, L, L, L, L, L, L, L, L, L, e0, e1, e3, e4, e5, e6, e7, e8, e9, e10, e11, e12, e13, e14, e15]
    exact (Cert.GCN.final_eq _ _ _ _ _ _ _ _ _ _ _ _ _ _ _ r0 r4 r5 r6 r7 r8 r9 r10 r11 r12 r13 hdst).symm)
    (ref_run m' ρ')

end Cert.Proof.Claims

end
-- ==== Proof.lean ====
/- A three-layer graph convolution with per-channel normalisation over the nodes and a mean over each group, computed by
   ten block-wise kernels between gathers and scatter-adds along the edges, and by whole-array operations: on the extended
   reals one function of the arguments, where the float arguments are finite and every edge's target is a node. -/
import proofs.«428539_j48352741818636_1_alg».proof.Defs
import proofs.«428539_j48352741818636_1_alg».proof.Proof.Gen.Kernel
import proofs.«428539_j48352741818636_1_alg».proof.Proof.Gen.Kernel.Skeleton
import proofs.«428539_j48352741818636_1_alg».proof.Proof.Gen.Kernel.Launch
import proofs.«428539_j48352741818636_1_alg».proof.Proof.Gen.Kernel.Points
import proofs.«428539_j48352741818636_1_alg».proof.Proof.Gen.Kernel.Frame
import proofs.«428539_j48352741818636_1_alg».proof.Proof.Gen.KernelIdeal
import proofs.«428539_j48352741818636_1_alg».proof.Proof.Gen.KernelIdeal.Skeleton
import proofs.«428539_j48352741818636_1_alg».proof.Proof.Gen.KernelIdeal.Launch
import proofs.«428539_j48352741818636_1_alg».proof.Proof.Gen.KernelIdeal.Points
import proofs.«428539_j48352741818636_1_alg».proof.Proof.Gen.KernelIdeal.Frame
import proofs.«428539_j48352741818636_1_alg».proof.Proof.Gen.ReferenceIdeal
import proofs.«428539_j48352741818636_1_alg».proof.Proof.Gen.Pre_finite_inputs
import proofs.«428539_j48352741818636_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
